-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x500000 : Shape := ⟨2, ![2, 500000]⟩
abbrev S500000x3 : Shape := ⟨2, ![500000, 3]⟩
abbrev S50000 : Shape := ⟨1, ![50000]⟩
abbrev S9x120x128 : Shape := ⟨3, ![9, 120, 128]⟩
abbrev S3x6x128 : Shape := ⟨3, ![3, 6, 128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S_ : Shape := ⟨0, ![]⟩
abbrev S1x500000 : Shape := ⟨2, ![1, 500000]⟩
abbrev S500000 : Shape := ⟨1, ![500000]⟩

class Facts : Prop where
  bcast_S_S9x120x128 : S_.BroadcastsInDim S9x120x128 (![] : Fin 0 → Fin S9x120x128.rank)
  reducesTo_S9x120x128_S_d0_1_2 : S9x120x128.ReducesTo [0, 1, 2] S_
  h_S_ : 0 < S_.numel
  bcast_S_S3x6x128 : S_.BroadcastsInDim S3x6x128 (![] : Fin 0 → Fin S3x6x128.rank)
  reducesTo_S3x6x128_S_d0_1_2 : S3x6x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S50000x9 : S_.BroadcastsInDim S50000x9 (![] : Fin 0 → Fin S50000x9.rank)
  reducesTo_S50000x9_S_d0_1 : S50000x9.ReducesTo [0, 1] S_
  bcast_S_S500000x3 : S_.BroadcastsInDim S500000x3 (![] : Fin 0 → Fin S500000x3.rank)
  reducesTo_S500000x3_S_d0_1 : S500000x3.ReducesTo [0, 1] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part4 {F : FTy → Type} [FloatOps F] (main_arg1 : IVec S2x500000 32) (main_arg2 : IVec S500000x3 32) (main_v65 : IVec S_ 1) (main_v67 : IVec S500000x3 1) : IVec S_ 1 :=
  let main_c_26 : IVec S_ 32 := constantI S_ 32 6#32
  let main_v68 : IVec S500000x3 32 := broadcastInDim S500000x3 ![] bcast_S_S500000x3 main_c_26
  let main_v69 : IVec S500000x3 1 := cmpi .slt main_arg2 main_v68
  let main_v70 : IVec S500000x3 1 := andi main_v67 main_v69
  let main_c_27 : IVec S_ 1 := constantI S_ 1 1#1
  let main_v71 : IVec S_ 1 := (fun x v => Host.reduce IntOp.andi x v reducesTo_S500000x3_S_d0_1 h_S_) main_v70 main_c_27
  let main_v72 : IVec S_ 1 := andi main_v65 main_v71
  let main_v73 : IVec S1x500000 32 := (extractStridedSlice S1x500000 ![0, 0] · slices_S2x500000_S1x500000_0_0) main_arg1
  let main_v74 : IVec S500000 32 := shapeCast S500000 main_v73 shapeCasts_S1x500000_S500000
  let main_c_28 : IVec S_ 32 := constantI S_ 32 0#32
  let main_v75 : IVec S500000 32 := broadcastInDim S500000 ![] bcast_S_S500000 main_c_28
  let main_v76 : IVec S500000 1 := cmpi .sge main_v74 main_v75
  let main_v77 : IVec S1x500000 32 := (extractStridedSlice S1x500000 ![0, 0] · slices_S2x500000_S1x500000_0_0) main_arg1
  let main_v78 : IVec S500000 32 := shapeCast S500000 main_v77 shapeCasts_S1x500000_S500000
  let main_c_29 : IVec S_ 32 := constantI S_ 32 50000#32
  let main_v79 : IVec S500000 32 := broadcastInDim S500000 ![] bcast_S_S500000 main_c_29
  let main_v80 : IVec S500000 1 := cmpi .slt main_v78 main_v79
  let main_v81 : IVec S500000 1 := andi main_v76 main_v80
  let main_c_30 : IVec S_ 1 := constantI S_ 1 1#1
  let main_v82 : IVec S_ 1 := (fun x v => Host.reduce IntOp.andi x v reducesTo_S500000_S_d0 h_S_) main_v81 main_c_30
  let main_v83 : IVec S_ 1 := andi main_v72 main_v82
  main_v83

def fn_part3 {F : FTy → Type} [FloatOps F] (main_arg0 : IVec S50000x9 32) (main_arg1 : IVec S2x500000 32) (main_arg2 : IVec S500000x3 32) (main_arg15 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg15
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_c_22 : IVec S_ 32 := constantI S_ 32 0#32
  let main_v59 : IVec S50000x9 32 := broadcastInDim S50000x9 ![] bcast_S_S50000x9 main_c_22
  let main_v60 : IVec S50000x9 1 := cmpi .sge main_arg0 main_v59
  let main_c_23 : IVec S_ 32 := constantI S_ 32 120#32
  let main_v61 : IVec S50000x9 32 := broadcastInDim S50000x9 ![] bcast_S_S50000x9 main_c_23
  let main_v62 : IVec S50000x9 1 := cmpi .slt main_arg0 main_v61
  let main_v63 : IVec S50000x9 1 := andi main_v60 main_v62
  let main_c_24 : IVec S_ 1 := constantI S_ 1 1#1
  let main_v64 : IVec S_ 1 := (fun x v => Host.reduce IntOp.andi x v reducesTo_S50000x9_S_d0_1 h_S_) main_v63 main_c_24
  let main_v65 : IVec S_ 1 := andi main_v58 main_v64
  let main_c_25 : IVec S_ 32 := constantI S_ 32 0#32
  let main_v66 : IVec S500000x3 32 := broadcastInDim S500000x3 ![] bcast_S_S500000x3 main_c_25
  let main_v67 : IVec S500000x3 1 := cmpi .sge main_arg2 main_v66
  fn_part4 (F := F) main_arg1 main_arg2 main_v65 main_v67

def fn_part2 {F : FTy → Type} [FloatOps F] (main_arg0 : IVec S50000x9 32) (main_arg1 : IVec S2x500000 32) (main_arg2 : IVec S500000x3 32) (main_arg11 : FVec F S4x128 .f32) (main_arg12 : FVec F S4x128 .f32) (main_arg13 : FVec F S4x128 .f32) (main_arg14 : FVec F S128x10 .f32) (main_arg15 : FVec F S10 .f32) (main_v33 : IVec S_ 1) : IVec S_ 1 :=
  let main_v34 : FVec F S4x128 .f32 := Host.absf main_arg11
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg12
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg13
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S128x10 .f32 := Host.absf main_arg14
  let main_cst_18 : FVec F S_ .f32 := constant S_ .f32 0x7F800000#32
  let main_v50 : FVec F S128x10 .f32 := broadcastInDim S128x10 ![] bcast_S_S128x10 main_cst_18
  fn_part3 (F := F) main_arg0 main_arg1 main_arg2 main_arg15 main_v48 main_v49 main_v50

def fn_part1 {F : FTy → Type} [FloatOps F] (main_arg0 : IVec S50000x9 32) (main_arg1 : IVec S2x500000 32) (main_arg2 : IVec S500000x3 32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S128x10 .f32) (main_arg15 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg8
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg9
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg10
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg0 main_arg1 main_arg2 main_arg11 main_arg12 main_arg13 main_arg14 main_arg15 main_v33

def fn {F : FTy → Type} [FloatOps F] (main_arg0 : IVec S50000x9 32) (main_arg1 : IVec S2x500000 32) (main_arg2 : IVec S500000x3 32) (main_arg3 : IVec S50000 32) (main_arg4 : FVec F S9x120x128 .f32) (main_arg5 : FVec F S3x6x128 .f32) (main_arg6 : FVec F S4x128x128 .f32) (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S128x10 .f32) (main_arg15 : FVec F S10 .f32) : IVec S_ 1 :=
  let main_v0 : FVec F S9x120x128 .f32 := Host.absf main_arg4
  let main_cst : FVec F S_ .f32 := constant S_ .f32 0x7F800000#32
  let main_v1 : FVec F S9x120x128 .f32 := broadcastInDim S9x120x128 ![] bcast_S_S9x120x128 main_cst
  let main_v2 : IVec S9x120x128 1 := cmpf .olt main_v0 main_v1
  let main_c : IVec S_ 1 := constantI S_ 1 1#1
  let main_v3 : IVec S_ 1 := (fun x v => Host.reduce IntOp.andi x v reducesTo_S9x120x128_S_d0_1_2 h_S_) main_v2 main_c
  let main_v4 : FVec F S3x6x128 .f32 := Host.absf main_arg5
  let main_cst_0 : FVec F S_ .f32 := constant S_ .f32 0x7F800000#32
  let main_v5 : FVec F S3x6x128 .f32 := broadcastInDim S3x6x128 ![] bcast_S_S3x6x128 main_cst_0
  let main_v6 : IVec S3x6x128 1 := cmpf .olt main_v4 main_v5
  let main_c_1 : IVec S_ 1 := constantI S_ 1 1#1
  let main_v7 : IVec S_ 1 := (fun x v => Host.reduce IntOp.andi x v reducesTo_S3x6x128_S_d0_1_2 h_S_) main_v6 main_c_1
  let main_v8 : IVec S_ 1 := andi main_v3 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg7
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg0 main_arg1 main_arg2 main_arg8 main_arg9 main_arg10 main_arg11 main_arg12 main_arg13 main_arg14 main_arg15 main_v13 main_v16
-- ==== Kernel.lean ====
abbrev S50000x9 : Shape := ⟨2, ![50000, 9]⟩
abbrev S2x500000 : Shape := ⟨2, ![2, 500000]⟩
abbrev S500000x3 : Shape := ⟨2, ![500000, 3]⟩
abbrev S50000 : Shape := ⟨1, ![50000]⟩
abbrev S9x120x128 : Shape := ⟨3, ![9, 120, 128]⟩
abbrev S3x6x128 : Shape := ⟨3, ![3, 6, 128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S50000x128 : Shape := ⟨2, ![50000, 128]⟩
abbrev S1000x9 : Shape := ⟨2, ![1000, 9]⟩
abbrev S1000x128 : Shape := ⟨2, ![1000, 128]⟩
abbrev S1000x120 : Shape := ⟨2, ![1000, 120]⟩
abbrev S1000x1 : Shape := ⟨2, ![1000, 1]⟩
abbrev S1x120x128 : Shape := ⟨3, ![1, 120, 128]⟩
abbrev S120x128 : Shape := ⟨2, ![120, 128]⟩
abbrev S500000x128 : Shape := ⟨2, ![500000, 128]⟩
abbrev S1000x3 : Shape := ⟨2, ![1000, 3]⟩
abbrev S1000x6 : Shape := ⟨2, ![1000, 6]⟩
abbrev S1x6x128 : Shape := ⟨3, ![1, 6, 128]⟩
abbrev S6x128 : Shape := ⟨2, ![6, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S5000x128 : Shape := ⟨2, ![5000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S1000 : Shape := ⟨1, ![1000]⟩
abbrev S1000x10 : Shape := ⟨2, ![1000, 10]⟩
abbrev S1x10 : Shape := ⟨2, ![1, 10]⟩

abbrev nBuf : Space → Nat
  | .hbm => 246
  | .vmem => 90
  | .smem => 0
  | _ => 0

abbrev hbmTy0_0 (i : Nat) : BufTy := match i % 128 with
  | 0 => ⟨S50000x9, .i32⟩
  | 1 => ⟨S2x500000, .i32⟩
  | 2 => ⟨S500000x3, .i32⟩
  | 3 => ⟨S50000, .i32⟩
  | 4 => ⟨S9x120x128, .f32⟩
  | 5 => ⟨S3x6x128, .f32⟩
  | 6 => ⟨S4x128x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S128x10, .f32⟩
  | 15 => ⟨S10, .f32⟩
  | 16 => ⟨S50000x128, .f32⟩
  | 17 => ⟨S500000x128, .f32⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S1, .i32⟩
  | 31 => ⟨S_, .i32⟩
  | 32 => ⟨S500000x1, .i32⟩
  | 33 => ⟨S500000x1, .i1⟩
  | 34 => ⟨S1x1, .i32⟩
  | 35 => ⟨S500000x1, .i32⟩
  | 36 => ⟨S500000x1, .i1⟩
  | 37 => ⟨S500000x1, .i1⟩
  | 38 => ⟨S_, .i1⟩
  | 39 => ⟨S500000, .i1⟩
  | 40 => ⟨S500000x128, .f32⟩
  | 41 => ⟨S500000x128, .i1⟩
  | 42 => ⟨S_, .f32⟩
  | 43 => ⟨S500000x128, .f32⟩
  | 44 => ⟨S500000x128, .f32⟩
  | 45 => ⟨S500000x128, .f32⟩
  | 46 => ⟨S_, .f32⟩
  | 47 => ⟨S50000x128, .f32⟩
  | 48 => ⟨S500000x1, .i32⟩
  | 49 => ⟨S50000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S50000x128, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S1, .i32⟩
  | 82 => ⟨S_, .i32⟩
  | 83 => ⟨S500000x1, .i32⟩
  | 84 => ⟨S500000x1, .i1⟩
  | 85 => ⟨S1x1, .i32⟩
  | 86 => ⟨S500000x1, .i32⟩
  | 87 => ⟨S500000x1, .i1⟩
  | 88 => ⟨S500000x1, .i1⟩
  | 89 => ⟨S_, .i1⟩
  | 90 => ⟨S500000, .i1⟩
  | 91 => ⟨S500000x128, .f32⟩
  | 92 => ⟨S500000x128, .i1⟩
  | 93 => ⟨S_, .f32⟩
  | 94 => ⟨S500000x128, .f32⟩
  | 95 => ⟨S500000x128, .f32⟩
  | 96 => ⟨S500000x128, .f32⟩
  | 97 => ⟨S_, .f32⟩
  | 98 => ⟨S50000x128, .f32⟩
  | 99 => ⟨S500000x1, .i32⟩
  | 100 => ⟨S50000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S50000x128, .f32⟩
  | 124 => ⟨S_, .i32⟩
  | 125 => ⟨S500000, .i32⟩
  | 126 => ⟨S500000, .i1⟩
  | 127 => ⟨S_, .i32⟩
  | _ => ⟨S50000x9, .i32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S1, .i32⟩
  | 5 => ⟨S_, .i32⟩
  | 6 => ⟨S500000x1, .i32⟩
  | 7 => ⟨S500000x1, .i1⟩
  | 8 => ⟨S1x1, .i32⟩
  | 9 => ⟨S500000x1, .i32⟩
  | 10 => ⟨S500000x1, .i1⟩
  | 11 => ⟨S500000x1, .i1⟩
  | 12 => ⟨S_, .i1⟩
  | 13 => ⟨S500000, .i1⟩
  | 14 => ⟨S500000x128, .f32⟩
  | 15 => ⟨S500000x128, .i1⟩
  | 16 => ⟨S_, .f32⟩
  | 17 => ⟨S500000x128, .f32⟩
  | 18 => ⟨S500000x128, .f32⟩
  | 19 => ⟨S500000x128, .f32⟩
  | 20 => ⟨S_, .f32⟩
  | 21 => ⟨S50000x128, .f32⟩
  | 22 => ⟨S500000x1, .i32⟩
  | 23 => ⟨S50000x128, .f32⟩
  | 24 => ⟨S1x128x128, .f32⟩
  | 25 => ⟨S128x128, .f32⟩
  | 26 => ⟨S1x128, .f32⟩
  | 27 => ⟨S128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S50000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S1, .i32⟩
  | 56 => ⟨S_, .i32⟩
  | 57 => ⟨S500000x1, .i32⟩
  | 58 => ⟨S500000x1, .i1⟩
  | 59 => ⟨S1x1, .i32⟩
  | 60 => ⟨S500000x1, .i32⟩
  | 61 => ⟨S500000x1, .i1⟩
  | 62 => ⟨S500000x1, .i1⟩
  | 63 => ⟨S_, .i1⟩
  | 64 => ⟨S500000, .i1⟩
  | 65 => ⟨S500000x128, .f32⟩
  | 66 => ⟨S500000x128, .i1⟩
  | 67 => ⟨S_, .f32⟩
  | 68 => ⟨S500000x128, .f32⟩
  | 69 => ⟨S500000x128, .f32⟩
  | 70 => ⟨S500000x128, .f32⟩
  | 71 => ⟨S_, .f32⟩
  | 72 => ⟨S50000x128, .f32⟩
  | 73 => ⟨S500000x1, .i32⟩
  | 74 => ⟨S50000x128, .f32⟩
  | 75 => ⟨S1x128x128, .f32⟩
  | 76 => ⟨S128x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S50000x128, .f32⟩
  | 98 => ⟨S_, .f32⟩
  | 99 => ⟨S1000x128, .f32⟩
  | 100 => ⟨S50000x1, .i32⟩
  | 101 => ⟨S1000x128, .f32⟩
  | 102 => ⟨S_, .f32⟩
  | 103 => ⟨S50000, .f32⟩
  | 104 => ⟨S_, .f32⟩
  | 105 => ⟨S1000, .f32⟩
  | 106 => ⟨S50000x1, .i32⟩
  | 107 => ⟨S1000, .f32⟩
  | 108 => ⟨S_, .f32⟩
  | 109 => ⟨S1000, .f32⟩
  | 110 => ⟨S1000, .f32⟩
  | 111 => ⟨S1000x1, .f32⟩
  | 112 => ⟨S1000x128, .f32⟩
  | 113 => ⟨S1000x128, .f32⟩
  | 114 => ⟨S1000x10, .f32⟩
  | 115 => ⟨S1x10, .f32⟩
  | 116 => ⟨S1000x10, .f32⟩
  | 117 => ⟨S1000x10, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | .local _ .vmem, ⟨0, _⟩ => ⟨S1000x9, .i32⟩
  | .local _ .vmem, ⟨1, _⟩ => ⟨S1000x9, .i32⟩
  | .local _ .vmem, ⟨2, _⟩ => ⟨S9x120x128, .f32⟩
  | .local _ .vmem, ⟨3, _⟩ => ⟨S1000x128, .f32⟩
  | .local _ .vmem, ⟨4, _⟩ => ⟨S1000x128, .f32⟩
  | .local _ .vmem, ⟨5, _⟩ => ⟨S1000x3, .i32⟩
  | .local _ .vmem, ⟨6, _⟩ => ⟨S1000x3, .i32⟩
  | .local _ .vmem, ⟨7, _⟩ => ⟨S3x6x128, .f32⟩
  | .local _ .vmem, ⟨8, _⟩ => ⟨S1000x128, .f32⟩
  | .local _ .vmem, ⟨9, _⟩ => ⟨S1000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S1x128, .f32⟩
  | .local _ .vmem, ⟨82, _⟩ => ⟨S128x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v6 : Ref sig .tc := ⟨.hbm, 44, rfl⟩
abbrev main_v7 : Ref sig .tc := ⟨.hbm, 45, rfl⟩
abbrev main_cst : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v34 : Ref sig .tc := ⟨.hbm, 95, rfl⟩
abbrev main_v35 : Ref sig .tc := ⟨.hbm, 96, rfl⟩
abbrev main_cst_0 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v62 : Ref sig .tc := ⟨.hbm, 146, rfl⟩
abbrev main_v63 : Ref sig .tc := ⟨.hbm, 147, rfl⟩
abbrev main_cst_1 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_call3_c : Ref sig .tc := ⟨.hbm, 175, rfl⟩
abbrev main_call3_v0 : Ref sig .tc := ⟨.hbm, 176, rfl⟩
abbrev main_call3_v1 : Ref sig .tc := ⟨.hbm, 177, rfl⟩
abbrev main_call3_c_0 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_c_1 : Ref sig .tc := ⟨.hbm, 183, rfl⟩
abbrev main_call3_c_2 : Ref sig .tc := ⟨.hbm, 184, rfl⟩
abbrev main_call3_v6 : Ref sig .tc := ⟨.hbm, 185, rfl⟩
abbrev main_call3_v7 : Ref sig .tc := ⟨.hbm, 186, rfl⟩
abbrev main_call3_v8 : Ref sig .tc := ⟨.hbm, 187, rfl⟩
abbrev main_call3_v9 : Ref sig .tc := ⟨.hbm, 188, rfl⟩
abbrev main_call3_v10 : Ref sig .tc := ⟨.hbm, 189, rfl⟩
abbrev main_call3_v11 : Ref sig .tc := ⟨.hbm, 190, rfl⟩
abbrev main_call3_c_3 : Ref sig .tc := ⟨.hbm, 191, rfl⟩
abbrev main_call3_v12 : Ref sig .tc := ⟨.hbm, 192, rfl⟩
abbrev main_call3_v13 : Ref sig .tc := ⟨.hbm, 193, rfl⟩
abbrev main_call3_v14 : Ref sig .tc := ⟨.hbm, 194, rfl⟩
abbrev main_call3_cst : Ref sig .tc := ⟨.hbm, 195, rfl⟩
abbrev main_call3_v15 : Ref sig .tc := ⟨.hbm, 196, rfl⟩
abbrev main_v90 : Ref sig .tc := ⟨.hbm, 197, rfl⟩
abbrev main_v91 : Ref sig .tc := ⟨.hbm, 198, rfl⟩
abbrev main_cst_2 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_cst_3 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_cst_4 : Ref sig .tc := ⟨.hbm, 230, rfl⟩
abbrev main_v121 : Ref sig .tc := ⟨.hbm, 231, rfl⟩
abbrev main_cst_5 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_6 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg9_0 : Ref sig .tc := ⟨.vmem, 27, rfl⟩
abbrev cc3_stg10_0 : Ref sig .tc := ⟨.vmem, 28, rfl⟩
abbrev cc3_stg10_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg7_0 : Ref sig .tc := ⟨.vmem, 45, rfl⟩
abbrev cc5_stg8_0 : Ref sig .tc := ⟨.vmem, 46, rfl⟩
abbrev cc5_stg9_0 : Ref sig .tc := ⟨.vmem, 47, rfl⟩
abbrev cc5_stg10_0 : Ref sig .tc := ⟨.vmem, 48, rfl⟩
abbrev cc5_stg10_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg7_0 : Ref sig .tc := ⟨.vmem, 65, rfl⟩
abbrev cc7_stg8_0 : Ref sig .tc := ⟨.vmem, 66, rfl⟩
abbrev cc7_stg9_0 : Ref sig .tc := ⟨.vmem, 67, rfl⟩
abbrev cc7_stg10_0 : Ref sig .tc := ⟨.vmem, 68, rfl⟩
abbrev cc7_stg10_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg2_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg5_0 : Ref sig .tc := ⟨.vmem, 83, rfl⟩
abbrev cc9_stg6_0 : Ref sig .tc := ⟨.vmem, 84, rfl⟩
abbrev cc9_stg7_0 : Ref sig .tc := ⟨.vmem, 85, rfl⟩
abbrev cc9_stg8_0 : Ref sig .tc := ⟨.vmem, 86, rfl⟩
abbrev cc9_stg9_0 : Ref sig .tc := ⟨.vmem, 87, rfl⟩
abbrev cc9_stg10_0 : Ref sig .tc := ⟨.vmem, 88, rfl⟩
abbrev cc9_stg10_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem9_0 : DmaSem sig := 27
abbrev cc3_sem10_0 : DmaSem sig := 28
abbrev cc3_sem10_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem7_0 : DmaSem sig := 45
abbrev cc5_sem8_0 : DmaSem sig := 46
abbrev cc5_sem9_0 : DmaSem sig := 47
abbrev cc5_sem10_0 : DmaSem sig := 48
abbrev cc5_sem10_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem7_0 : DmaSem sig := 65
abbrev cc7_sem8_0 : DmaSem sig := 66
abbrev cc7_sem9_0 : DmaSem sig := 67
abbrev cc7_sem10_0 : DmaSem sig := 68
abbrev cc7_sem10_1 : DmaSem sig := 69
abbrev cc8_sem0_0 : DmaSem sig := 70
abbrev cc8_sem0_1 : DmaSem sig := 71
abbrev cc8_sem1_0 : DmaSem sig := 72
abbrev cc8_sem1_1 : DmaSem sig := 73
abbrev cc8_sem2_0 : DmaSem sig := 74
abbrev cc8_sem2_1 : DmaSem sig := 75
abbrev cc9_sem0_0 : DmaSem sig := 76
abbrev cc9_sem0_1 : DmaSem sig := 77
abbrev cc9_sem1_0 : DmaSem sig := 78
abbrev cc9_sem1_1 : DmaSem sig := 79
abbrev cc9_sem2_0 : DmaSem sig := 80
abbrev cc9_sem3_0 : DmaSem sig := 81
abbrev cc9_sem4_0 : DmaSem sig := 82
abbrev cc9_sem5_0 : DmaSem sig := 83
abbrev cc9_sem6_0 : DmaSem sig := 84
abbrev cc9_sem7_0 : DmaSem sig := 85
abbrev cc9_sem8_0 : DmaSem sig := 86
abbrev cc9_sem9_0 : DmaSem sig := 87
abbrev cc9_sem10_0 : DmaSem sig := 88
abbrev cc9_sem10_1 : DmaSem sig := 89

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x3 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x6x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S5000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 2 → Memref sig .tc .vmem S5000x128 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

class Facts₀ : Prop where
  iota_S1000x120_d1_w32 : S1000x120.Iotas .tc 32 [1]
  inb_S1000x9_S1000x1_0_0 : ∀ a, (![0, 0] : Fin 2 → Nat) a + S1000x1.size a ≤ S1000x9.size a
  h_S1000x1 : 0 < S1000x1.numel
  broadcasts_S1000x1_S1000x120 : S1000x1.Broadcasts S1000x120
  natLt_1_32 : 1 < 32
  inb_S9x120x128_S1x120x128_0_0_0 : ∀ a, (![0, 0, 0] : Fin 3 → Nat) a + S1x120x128.size a ≤ S9x120x128.size a
  h_S1x120x128 : 0 < S1x120x128.numel
  shapeCasts_S1x120x128_S120x128 : S1x120x128.ShapeCasts S120x128
  inb_S1000x9_S1000x1_0_1 : ∀ a, (![0, 1] : Fin 2 → Nat) a + S1000x1.size a ≤ S1000x9.size a
  inb_S9x120x128_S1x120x128_1_0_0 : ∀ a, (![1, 0, 0] : Fin 3 → Nat) a + S1x120x128.size a ≤ S9x120x128.size a
  inb_S1000x9_S1000x1_0_2 : ∀ a, (![0, 2] : Fin 2 → Nat) a + S1000x1.size a ≤ S1000x9.size a
  inb_S9x120x128_S1x120x128_2_0_0 : ∀ a, (![2, 0, 0] : Fin 3 → Nat) a + S1x120x128.size a ≤ S9x120x128.size a
  inb_S1000x9_S1000x1_0_3 : ∀ a, (![0, 3] : Fin 2 → Nat) a + S1000x1.size a ≤ S1000x9.size a
  inb_S9x120x128_S1x120x128_3_0_0 : ∀ a, (![3, 0, 0] : Fin 3 → Nat) a + S1x120x128.size a ≤ S9x120x128.size a
  inb_S1000x9_S1000x1_0_4 : ∀ a, (![0, 4] : Fin 2 → Nat) a + S1000x1.size a ≤ S1000x9.size a
  inb_S9x120x128_S1x120x128_4_0_0 : ∀ a, (![4, 0, 0] : Fin 3 → Nat) a + S1x120x128.size a ≤ S9x120x128.size a
  inb_S1000x9_S1000x1_0_5 : ∀ a, (![0, 5] : Fin 2 → Nat) a + S1000x1.size a ≤ S1000x9.size a
  inb_S9x120x128_S1x120x128_5_0_0 : ∀ a, (![5, 0, 0] : Fin 3 → Nat) a + S1x120x128.size a ≤ S9x120x128.size a
  inb_S1000x9_S1000x1_0_6 : ∀ a, (![0, 6] : Fin 2 → Nat) a + S1000x1.size a ≤ S1000x9.size a
  inb_S9x120x128_S1x120x128_6_0_0 : ∀ a, (![6, 0, 0] : Fin 3 → Nat) a + S1x120x128.size a ≤ S9x120x128.size a
  inb_S1000x9_S1000x1_0_7 : ∀ a, (![0, 7] : Fin 2 → Nat) a + S1000x1.size a ≤ S1000x9.size a
  inb_S9x120x128_S1x120x128_7_0_0 : ∀ a, (![7, 0, 0] : Fin 3 → Nat) a + S1x120x128.size a ≤ S9x120x128.size a
  inb_S1000x9_S1000x1_0_8 : ∀ a, (![0, 8] : Fin 2 → Nat) a + S1000x1.size a ≤ S1000x9.size a
  inb_S9x120x128_S1x120x128_8_0_0 : ∀ a, (![8, 0, 0] : Fin 3 → Nat) a + S1x120x128.size a ≤ S9x120x128.size a
  inb_S1000x128_S1000x128_0_0 : ∀ a, (![0, 0] : Fin 2 → Nat) a + S1000x128.size a ≤ S1000x128.size a
  h_S1000x128 : 0 < S1000x128.numel
  iota_S1000x6_d1_w32 : S1000x6.Iotas .tc 32 [1]
  inb_S1000x3_S1000x1_0_0 : ∀ a, (![0, 0] : Fin 2 → Nat) a + S1000x1.size a ≤ S1000x3.size a
  broadcasts_S1000x1_S1000x6 : S1000x1.Broadcasts S1000x6
  inb_S3x6x128_S1x6x128_0_0_0 : ∀ a, (![0, 0, 0] : Fin 3 → Nat) a + S1x6x128.size a ≤ S3x6x128.size a
  h_S1x6x128 : 0 < S1x6x128.numel
  shapeCasts_S1x6x128_S6x128 : S1x6x128.ShapeCasts S6x128
  inb_S1000x3_S1000x1_0_1 : ∀ a, (![0, 1] : Fin 2 → Nat) a + S1000x1.size a ≤ S1000x3.size a
  inb_S3x6x128_S1x6x128_1_0_0 : ∀ a, (![1, 0, 0] : Fin 3 → Nat) a + S1x6x128.size a ≤ S3x6x128.size a
  inb_S1000x3_S1000x1_0_2 : ∀ a, (![0, 2] : Fin 2 → Nat) a + S1000x1.size a ≤ S1000x3.size a
  inb_S3x6x128_S1x6x128_2_0_0 : ∀ a, (![2, 0, 0] : Fin 3 → Nat) a + S1x6x128.size a ≤ S3x6x128.size a
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  dot_S1000x120_S120x128_S1000x128_1_0_0_1_n_n_wf : DotDims.WF S1000x120 S120x128 S1000x128 [1] [0] [0] [1] [] []
  dot_S1000x6_S6x128_S1000x128_1_0_0_1_n_n_wf : DotDims.WF S1000x6 S6x128 S1000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  dot_S1000x128_S128x10_S1000x10_1_0_0_1_n_n_wf : DotDims.WF S1000x128 S128x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x9.size a ≤ S50000x9.size a
  hwx0_0 : ∀ i : grid0.Coords, EltTy.bits .i32 = 32 ∨ (Rect.block (s := S50000x9) S1000x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x120x128.size a ≤ S9x120x128.size a
  hwx0_1 : ∀ i : grid0.Coords, EltTy.bits .f32 = 32 ∨ (Rect.block (s := S9x120x128) S9x120x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3.size a ≤ S500000x3.size a
  hwx1_0 : ∀ i : grid1.Coords, EltTy.bits .i32 = 32 ∨ (Rect.block (s := S500000x3) S1000x3.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x6x128.size a ≤ S3x6x128.size a
  hwx1_1 : ∀ i : grid1.Coords, EltTy.bits .f32 = 32 ∨ (Rect.block (s := S3x6x128) S3x6x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S500000x128.size a
  hwx1_2 : ∀ i : grid1.Coords, EltTy.bits .f32 = 32 ∨ (Rect.block (s := S500000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S50000x128.size a
  hwx3_10 : ∀ i : grid3.Coords, EltTy.bits .f32 = 32 ∨ (Rect.block (s := S50000x128) S5000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S500000x128.size a
  hwx4_2 : ∀ i : grid4.Coords, EltTy.bits .f32 = 32 ∨ (Rect.block (s := S500000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S50000x128.size a
  hwx5_10 : ∀ i : grid5.Coords, EltTy.bits .f32 = 32 ∨ (Rect.block (s := S50000x128) S5000x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S500000x128.size a
  hwx6_0 : ∀ i : grid6.Coords, EltTy.bits .f32 = 32 ∨ (Rect.block (s := S500000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S500000x128.size a
  hwx6_1 : ∀ i : grid6.Coords, EltTy.bits .f32 = 32 ∨ (Rect.block (s := S500000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S500000x128.size a
  hwx6_2 : ∀ i : grid6.Coords, EltTy.bits .f32 = 32 ∨ (Rect.block (s := S500000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x128.size a ≤ S50000x128.size a
  hwx7_10 : ∀ i : grid7.Coords, EltTy.bits .f32 = 32 ∨ (Rect.block (s := S50000x128) S5000x128.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S500000x128.size a
  hwx8_0 : ∀ i : grid8.Coords, EltTy.bits .f32 = 32 ∨ (Rect.block (s := S500000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S500000x128.size a
  hwx8_1 : ∀ i : grid8.Coords, EltTy.bits .f32 = 32 ∨ (Rect.block (s := S500000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S500000x128.size a
  hwx8_2 : ∀ i : grid8.Coords, EltTy.bits .f32 = 32 ∨ (Rect.block (s := S500000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x128.size a ≤ S1x128.size a
  hwx9_9 : ∀ i : grid9.Coords, EltTy.bits .f32 = 32 ∨ (Rect.block (s := S1x128) S1x128.size (cc9_transform_9 i) (hinb9_9 i)).WholeWords (EltTy.packing .f32)
  hstage9_10 : ∀ j, (stage9_10 j).IsWhole
  nbuf9_10 : grid9.bufCount reads9_10 false = 2
  hreads9_10 : ∀ i i' : grid9.Coords, (∀ a, reads9_10 a = true → i a = i' a) → cc9_transform_10 i = cc9_transform_10 i'
  hinb9_10 : ∀ (i : grid9.Coords) a, (cc9_transform_10 i a + 1) * S5000x128.size a ≤ S50000x128.size a
  hwx9_10 : ∀ i : grid9.Coords, EltTy.bits .f32 = 32 ∨ (Rect.block (s := S50000x128) S5000x128.size (cc9_transform_10 i) (hinb9_10 i)).WholeWords (EltTy.packing .f32)

variable [Facts₀]

def dot_S1000x120_S120x128_S1000x128_1_0_0_1_n_n : DotDims S1000x120 S120x128 S1000x128 where
  lhsContracting := [1]
  rhsContracting := [0]
  lhsNonContracting := [0]
  rhsNonContracting := [1]
  lhsBatch := []
  rhsBatch := []
  wf := dot_S1000x120_S120x128_S1000x128_1_0_0_1_n_n_wf
def dot_S1000x6_S6x128_S1000x128_1_0_0_1_n_n : DotDims S1000x6 S6x128 S1000x128 where
  lhsContracting := [1]
  rhsContracting := [0]
  lhsNonContracting := [0]
  rhsNonContracting := [1]
  lhsBatch := []
  rhsBatch := []
  wf := dot_S1000x6_S6x128_S1000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

abbrev win0_0 : Pipeline.Window sig grid0 :=
  Pipeline.Window.ofSpec (Memref.whole main_arg0) S1000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S9x120x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S3x6x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v29) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v30) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v31) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v32) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v33) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v34) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v33) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v44) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v57) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v58) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v59) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v60) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v61) S5000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v63) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v66) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v68) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v72) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v84) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v85) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v86) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v87) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v88) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v89) S5000x128.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.ofSpec (Memref.whole main_v90) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v1) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v91) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v89) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v94) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v96) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v111) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v100) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v112) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v113) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v114) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v115) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v116) S1x128.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v117) S5000x128.size cc9_transform_10 reads9_10 true false 2 stage9_10 sem9_10
    hrank9 hreads9_10 hinb9_10 nbuf9_10 (Memref.isWhole_whole _) hwx9_10 hstage9_10

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

class Facts : Prop extends Facts₀ where

variable [Facts]
-- ==== ReferenceIdeal.lean ====
abbrev S50000x9 : Shape := ⟨2, ![50000, 9]⟩
abbrev S2x500000 : Shape := ⟨2, ![2, 500000]⟩
abbrev S500000x3 : Shape := ⟨2, ![500000, 3]⟩
abbrev S50000 : Shape := ⟨1, ![50000]⟩
abbrev S9x120x128 : Shape := ⟨3, ![9, 120, 128]⟩
abbrev S3x6x128 : Shape := ⟨3, ![3, 6, 128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S50000x9x2 : Shape := ⟨3, ![50000, 9, 2]⟩
abbrev S50000x9x128 : Shape := ⟨3, ![50000, 9, 128]⟩
abbrev S50000x128 : Shape := ⟨2, ![50000, 128]⟩
abbrev S3 : Shape := ⟨1, ![3]⟩
abbrev S1x3 : Shape := ⟨2, ![1, 3]⟩
abbrev S500000x3x1 : Shape := ⟨3, ![500000, 3, 1]⟩
abbrev S500000x3x2 : Shape := ⟨3, ![500000, 3, 2]⟩
abbrev S500000x3x128 : Shape := ⟨3, ![500000, 3, 128]⟩
abbrev S500000x128 : Shape := ⟨2, ![500000, 128]⟩
abbrev S1x500000 : Shape := ⟨2, ![1, 500000]⟩
abbrev S500000 : Shape := ⟨1, ![500000]⟩
abbrev S500000x1 : Shape := ⟨2, ![500000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩
abbrev S50000x1 : Shape := ⟨2, ![50000, 1]⟩
abbrev S1000 : Shape := ⟨1, ![1000]⟩
abbrev S1000x1 : Shape := ⟨2, ![1000, 1]⟩
abbrev S1000x10 : Shape := ⟨2, ![1000, 10]⟩
abbrev S1x10 : Shape := ⟨2, ![1, 10]⟩

abbrev nBuf : Space → Nat
  | .hbm => 346
  | .vmem => 0
  | .smem => 0
  | _ => 0

abbrev hbmTy0_0 (i : Nat) : BufTy := match i % 128 with
  | 0 => ⟨S50000x9, .i32⟩
  | 1 => ⟨S2x500000, .i32⟩
  | 2 => ⟨S500000x3, .i32⟩
  | 3 => ⟨S50000, .i32⟩
  | 4 => ⟨S9x120x128, .f32⟩
  | 5 => ⟨S3x6x128, .f32⟩
  | 6 => ⟨S4x128x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S128x10, .f32⟩
  | 15 => ⟨S10, .f32⟩
  | 16 => ⟨S9, .i32⟩
  | 17 => ⟨S1x9, .i32⟩
  | 18 => ⟨S_, .i32⟩
  | 19 => ⟨S1x9, .i32⟩
  | 20 => ⟨S1x9, .i1⟩
  | 21 => ⟨S_, .i32⟩
  | 22 => ⟨S1x9, .i32⟩
  | 23 => ⟨S1x9, .i32⟩
  | 24 => ⟨S1x9, .i32⟩
  | 25 => ⟨S_, .i32⟩
  | 26 => ⟨S50000x9, .i32⟩
  | 27 => ⟨S50000x9, .i1⟩
  | 28 => ⟨S_, .i32⟩
  | 29 => ⟨S50000x9, .i32⟩
  | 30 => ⟨S50000x9, .i32⟩
  | 31 => ⟨S50000x9, .i32⟩
  | 32 => ⟨S50000x9, .i32⟩
  | 33 => ⟨S50000x9x1, .i32⟩
  | 34 => ⟨S50000x9x1, .i32⟩
  | 35 => ⟨S50000x9x2, .i32⟩
  | 36 => ⟨S50000x9x128, .f32⟩
  | 37 => ⟨S_, .f32⟩
  | 38 => ⟨S50000x128, .f32⟩
  | 39 => ⟨S3, .i32⟩
  | 40 => ⟨S1x3, .i32⟩
  | 41 => ⟨S_, .i32⟩
  | 42 => ⟨S1x3, .i32⟩
  | 43 => ⟨S1x3, .i1⟩
  | 44 => ⟨S_, .i32⟩
  | 45 => ⟨S1x3, .i32⟩
  | 46 => ⟨S1x3, .i32⟩
  | 47 => ⟨S1x3, .i32⟩
  | 48 => ⟨S_, .i32⟩
  | 49 => ⟨S500000x3, .i32⟩
  | 50 => ⟨S500000x3, .i1⟩
  | 51 => ⟨S_, .i32⟩
  | 52 => ⟨S500000x3, .i32⟩
  | 53 => ⟨S500000x3, .i32⟩
  | 54 => ⟨S500000x3, .i32⟩
  | 55 => ⟨S500000x3, .i32⟩
  | 56 => ⟨S500000x3x1, .i32⟩
  | 57 => ⟨S500000x3x1, .i32⟩
  | 58 => ⟨S500000x3x2, .i32⟩
  | 59 => ⟨S500000x3x128, .f32⟩
  | 60 => ⟨S_, .f32⟩
  | 61 => ⟨S500000x128, .f32⟩
  | 62 => ⟨S1x500000, .i32⟩
  | 63 => ⟨S500000, .i32⟩
  | 64 => ⟨S1x500000, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x128, .f32⟩
  | 75 => ⟨S500000x128, .f32⟩
  | 76 => ⟨S_, .f32⟩
  | 77 => ⟨S500000x128, .f32⟩
  | 78 => ⟨S500000x128, .f32⟩
  | 79 => ⟨S_, .f32⟩
  | 80 => ⟨S50000x128, .f32⟩
  | 81 => ⟨S500000x1, .i32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x9, .i32⟩

abbrev hbmTy0_1 (i : Nat) : BufTy := match i % 128 with
  | 0 => ⟨S50000x128, .f32⟩
  | 1 => ⟨S50000x128, .f32⟩
  | 2 => ⟨S50000x128, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x128, .f32⟩
  | 12 => ⟨S500000x128, .f32⟩
  | 13 => ⟨S_, .f32⟩
  | 14 => ⟨S500000x128, .f32⟩
  | 15 => ⟨S500000x128, .f32⟩
  | 16 => ⟨S_, .f32⟩
  | 17 => ⟨S50000x128, .f32⟩
  | 18 => ⟨S500000x1, .i32⟩
  | 19 => ⟨S50000x128, .f32⟩
  | 20 => ⟨S50000x128, .f32⟩
  | 21 => ⟨S1x128x128, .f32⟩
  | 22 => ⟨S128x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x128, .f32⟩
  | 77 => ⟨S500000x128, .f32⟩
  | 78 => ⟨S_, .f32⟩
  | 79 => ⟨S500000x128, .f32⟩
  | 80 => ⟨S500000x128, .f32⟩
  | 81 => ⟨S_, .f32⟩
  | 82 => ⟨S50000x128, .f32⟩
  | 83 => ⟨S500000x1, .i32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x9, .i32⟩

abbrev hbmTy0_2 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x128, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S500000x128, .f32⟩
  | 15 => ⟨S_, .f32⟩
  | 16 => ⟨S500000x128, .f32⟩
  | 17 => ⟨S500000x128, .f32⟩
  | 18 => ⟨S_, .f32⟩
  | 19 => ⟨S50000x128, .f32⟩
  | 20 => ⟨S500000x1, .i32⟩
  | 21 => ⟨S50000x128, .f32⟩
  | 22 => ⟨S50000x128, .f32⟩
  | 23 => ⟨S1x128x128, .f32⟩
  | 24 => ⟨S128x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S_, .f32⟩
  | 71 => ⟨S1000x128, .f32⟩
  | 72 => ⟨S50000x1, .i32⟩
  | 73 => ⟨S1000x128, .f32⟩
  | 74 => ⟨S_, .f32⟩
  | 75 => ⟨S50000, .f32⟩
  | 76 => ⟨S_, .f32⟩
  | 77 => ⟨S1000, .f32⟩
  | 78 => ⟨S50000x1, .i32⟩
  | 79 => ⟨S1000, .f32⟩
  | 80 => ⟨S_, .f32⟩
  | 81 => ⟨S1000, .f32⟩
  | 82 => ⟨S1000, .f32⟩
  | 83 => ⟨S1000x1, .f32⟩
  | 84 => ⟨S1000x128, .f32⟩
  | 85 => ⟨S1000x128, .f32⟩
  | 86 => ⟨S1000x10, .f32⟩
  | 87 => ⟨S1x10, .f32⟩
  | 88 => ⟨S1000x10, .f32⟩
  | 89 => ⟨S1000x10, .f32⟩
  | _ => ⟨S50000x9, .i32⟩

abbrev hbmTy (i : Nat) : BufTy := match i / 128 with
  | 0 => hbmTy0_0 i
  | 1 => hbmTy0_1 i
  | 2 => hbmTy0_2 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call1_cst : Ref sig .tc := ⟨.hbm, 92, rfl⟩
abbrev main_call1_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_cst : Ref sig .tc := ⟨.hbm, 127, rfl⟩
abbrev main_call2_v0 : Ref sig .tc := ⟨.hbm, 128, rfl⟩
abbrev main_v93 : Ref sig .tc := ⟨.hbm, 129, rfl⟩
abbrev main_v94 : Ref sig .tc := ⟨.hbm, 130, rfl⟩
abbrev main_c_12 : Ref sig .tc := ⟨.hbm, 131, rfl⟩
abbrev main_v95 : Ref sig .tc := ⟨.hbm, 132, rfl⟩
abbrev main_v96 : Ref sig .tc := ⟨.hbm, 133, rfl⟩
abbrev main_c_13 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call3_cst : Ref sig .tc := ⟨.hbm, 141, rfl⟩
abbrev main_call3_v0 : Ref sig .tc := ⟨.hbm, 142, rfl⟩
abbrev main_v103 : Ref sig .tc := ⟨.hbm, 143, rfl⟩
abbrev main_cst_14 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_call4_cst : Ref sig .tc := ⟨.hbm, 157, rfl⟩
abbrev main_call4_v0 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_15 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_call5_cst : Ref sig .tc := ⟨.hbm, 192, rfl⟩
abbrev main_call5_v0 : Ref sig .tc := ⟨.hbm, 193, rfl⟩
abbrev main_v148 : Ref sig .tc := ⟨.hbm, 194, rfl⟩
abbrev main_v149 : Ref sig .tc := ⟨.hbm, 195, rfl⟩
abbrev main_c_16 : Ref sig .tc := ⟨.hbm, 196, rfl⟩
abbrev main_v150 : Ref sig .tc := ⟨.hbm, 197, rfl⟩
abbrev main_v151 : Ref sig .tc := ⟨.hbm, 198, rfl⟩
abbrev main_c_17 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_call6_cst : Ref sig .tc := ⟨.hbm, 206, rfl⟩
abbrev main_call6_v0 : Ref sig .tc := ⟨.hbm, 207, rfl⟩
abbrev main_v158 : Ref sig .tc := ⟨.hbm, 208, rfl⟩
abbrev main_cst_18 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_call7_cst : Ref sig .tc := ⟨.hbm, 222, rfl⟩
abbrev main_call7_v0 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_19 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_call8_cst : Ref sig .tc := ⟨.hbm, 257, rfl⟩
abbrev main_call8_v0 : Ref sig .tc := ⟨.hbm, 258, rfl⟩
abbrev main_v203 : Ref sig .tc := ⟨.hbm, 259, rfl⟩
abbrev main_v204 : Ref sig .tc := ⟨.hbm, 260, rfl⟩
abbrev main_c_20 : Ref sig .tc := ⟨.hbm, 261, rfl⟩
abbrev main_v205 : Ref sig .tc := ⟨.hbm, 262, rfl⟩
abbrev main_v206 : Ref sig .tc := ⟨.hbm, 263, rfl⟩
abbrev main_c_21 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_call9_cst : Ref sig .tc := ⟨.hbm, 271, rfl⟩
abbrev main_call9_v0 : Ref sig .tc := ⟨.hbm, 272, rfl⟩
abbrev main_v213 : Ref sig .tc := ⟨.hbm, 273, rfl⟩
abbrev main_cst_22 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_call10_cst : Ref sig .tc := ⟨.hbm, 287, rfl⟩
abbrev main_call10_v0 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_cst_23 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_call11_cst : Ref sig .tc := ⟨.hbm, 322, rfl⟩
abbrev main_call11_v0 : Ref sig .tc := ⟨.hbm, 323, rfl⟩
abbrev main_v258 : Ref sig .tc := ⟨.hbm, 324, rfl⟩
abbrev main_v259 : Ref sig .tc := ⟨.hbm, 325, rfl⟩
abbrev main_cst_24 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_cst_25 : Ref sig .tc := ⟨.hbm, 330, rfl⟩
abbrev main_v263 : Ref sig .tc := ⟨.hbm, 331, rfl⟩
abbrev main_cst_26 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_cst_27 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S_S1x9 : S_.BroadcastsInDim S1x9 (![] : Fin 0 → Fin S1x9.rank)
  bcast_S_S50000x9 : S_.BroadcastsInDim S50000x9 (![] : Fin 0 → Fin S50000x9.rank)
  bcast_S1x9_S50000x9_0_1 : S1x9.BroadcastsInDim S50000x9 (![0, 1] : Fin 2 → Fin S50000x9.rank)
  bcast_S50000x9_S50000x9x1_0_1 : S50000x9.BroadcastsInDim S50000x9x1 (![0, 1] : Fin 2 → Fin S50000x9x1.rank)
  concatenates_S50000x9x1_S50000x9x1_S50000x9x2_d2 : Shape.Concatenates [S50000x9x1, S50000x9x1] S50000x9x2 2
  reducesTo_S50000x9x128_S50000x128_d1 : S50000x9x128.ReducesTo [1] S50000x128
  h_S_ : 0 < S_.numel
  bcast_S3_S1x3_1 : S3.BroadcastsInDim S1x3 (![1] : Fin 1 → Fin S1x3.rank)
  bcast_S_S1x3 : S_.BroadcastsInDim S1x3 (![] : Fin 0 → Fin S1x3.rank)
  bcast_S_S500000x3 : S_.BroadcastsInDim S500000x3 (![] : Fin 0 → Fin S500000x3.rank)
  bcast_S1x3_S500000x3_0_1 : S1x3.BroadcastsInDim S500000x3 (![0, 1] : Fin 2 → Fin S500000x3.rank)
  bcast_S500000x3_S500000x3x1_0_1 : S500000x3.BroadcastsInDim S500000x3x1 (![0, 1] : Fin 2 → Fin S500000x3x1.rank)
  concatenates_S500000x3x1_S500000x3x1_S500000x3x2_d2 : Shape.Concatenates [S500000x3x1, S500000x3x1] S500000x3x2 2
  reducesTo_S500000x3x128_S500000x128_d1 : S500000x3x128.ReducesTo [1] S500000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  gather_S9x120x128_S50000x9x2_S50000x9x128_2_01_n_n_01_2_11128_wf : GatherDims.WF S9x120x128 S50000x9x2 S50000x9x128 [2] [0, 1] [] [0, 1] [] 2 ![1, 1, 128]
  gather_S3x6x128_S500000x3x2_S500000x3x128_2_01_n_n_01_2_11128_wf : GatherDims.WF S3x6x128 S500000x3x2 S500000x3x128 [2] [0, 1] [] [0, 1] [] 2 ![1, 1, 128]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  dot_S1000x128_S128x10_S1000x10_1_0_0_1_n_n_wf : DotDims.WF S1000x128 S128x10 S1000x10 [1] [0] [0] [1] [] []

variable [Facts₀]

def gather_S9x120x128_S50000x9x2_S50000x9x128_2_01_n_n_01_2_11128 : GatherDims S9x120x128 S50000x9x2 S50000x9x128 where
  offsetDims := [2]
  collapsedSliceDims := [0, 1]
  operandBatchingDims := []
  startIndicesBatchingDims := []
  startIndexMap := [0, 1]
  indexVectorDim := 2
  sliceSizes := ![1, 1, 128]
  wf := gather_S9x120x128_S50000x9x2_S50000x9x128_2_01_n_n_01_2_11128_wf
def gather_S3x6x128_S500000x3x2_S500000x3x128_2_01_n_n_01_2_11128 : GatherDims S3x6x128 S500000x3x2 S500000x3x128 where
  offsetDims := [2]
  collapsedSliceDims := [0, 1]
  operandBatchingDims := []
  startIndicesBatchingDims := []
  startIndexMap := [0, 1]
  indexVectorDim := 2
  sliceSizes := ![1, 1, 128]
  wf := gather_S3x6x128_S500000x3x2_S500000x3x128_2_01_n_n_01_2_11128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

class Facts : Prop extends Facts₀ where

variable [Facts]
-- ==== Proof.PreDecode.lean ====
import proofs.«416347_j65000035058412_3_alg».proof.Pre_finite_inputs
import proofs.«416347_j65000035058412_3_alg».proof.Proof.Gen.Pre_finite_inputs
import Idealize.ShloMosaic.Lib.ReduceAll
import Idealize.ShloMosaic.Lib.ValueIdx
import Idealize.ShloMosaic.Lib.ValueLayout

noncomputable section

namespace Cert.PreDecode

open Cert.Pre_finite_inputs Cert.Pre_finite_inputs.Gen Idealize.ShloMosaic

def srcOf (a : IVec S2x500000 32) : IVec S500000 32 :=
  shapeCast S500000 ((extractStridedSlice S1x500000 ![0, 0] · Facts.slices_S2x500000_S1x500000_0_0) a)
    Facts.shapeCasts_S1x500000_S500000

theorem srcOf_apply (a : IVec S2x500000 32) (k : Fin 500000) :
    srcOf a (ValueIdx.ix1 k) = a (ValueIdx.ix2 (0 : Fin 2) k) := by
  unfold srcOf
  rw [ValueIdx.shapeCast_1a_a_apply]
  refine extractStridedSlice_apply _ _ _ _ _ (fun d => ?_)
  match d with
  | ⟨0, _⟩ => rfl
  | ⟨1, _⟩ => show k.val = 0 + k.val; omega

instance : Subsingleton S_.Idx := ⟨fun a b => funext fun d => d.elim0⟩

theorem ranges (main_arg0 : IVec S50000x9 32) (main_arg1 : IVec S2x500000 32) (main_arg2 : IVec S500000x3 32) (main_arg3 : IVec S50000 32) (main_arg4 : FVec Ideal S9x120x128 .f32) (main_arg5 : FVec Ideal S3x6x128 .f32) (main_arg6 : FVec Ideal S4x128x128 .f32) (main_arg7 : FVec Ideal S4x128 .f32) (main_arg8 : FVec Ideal S4x128x128 .f32) (main_arg9 : FVec Ideal S4x128 .f32) (main_arg10 : FVec Ideal S4x128 .f32) (main_arg11 : FVec Ideal S4x128 .f32) (main_arg12 : FVec Ideal S4x128 .f32) (main_arg13 : FVec Ideal S4x128 .f32) (main_arg14 : FVec Ideal S128x10 .f32) (main_arg15 : FVec Ideal S10 .f32)
    (h : Cert.Pre_finite_inputs.fn (F := Ideal) main_arg0 main_arg1 main_arg2 main_arg3 main_arg4 main_arg5 main_arg6 main_arg7 main_arg8 main_arg9 main_arg10 main_arg11 main_arg12 main_arg13 main_arg14 main_arg15 = fun _ => 1#1) :
    (∀ i, 0 ≤ (main_arg0 i).toInt ∧ (main_arg0 i).toInt < 120)
    ∧ (∀ i, 0 ≤ (main_arg2 i).toInt ∧ (main_arg2 i).toInt < 6)
    ∧ (∀ i, 0 ≤ (srcOf main_arg1 i).toInt ∧ (srcOf main_arg1 i).toInt < 50000) := by
  have h0 := congrFun h ValueIdx.ix0
  dsimp only [fn, fn_part1, fn_part2, fn_part3, fn_part4] at h0

  change IntOp.andi (IntOp.andi (IntOp.andi _ _) _) _ = 1#1 at h0
  obtain ⟨h1, hs⟩ := IntOp.andi_eq_one.1 h0
  obtain ⟨h2, he⟩ := IntOp.andi_eq_one.1 h1
  obtain ⟨-, hx⟩ := IntOp.andi_eq_one.1 h2
  have z0 : (0#32 : BitVec 32).toInt = 0 := by decide
  have z120 : (120#32 : BitVec 32).toInt = 120 := by decide
  have z6 : (6#32 : BitVec 32).toInt = 6 := by decide
  have z50000 : (50000#32 : BitVec 32).toInt = 50000 := by decide
  refine ⟨fun i => ?_, fun i => ?_, fun i => ?_⟩
  · have e := Host.reduce_andi_all _ _ _ _ _ hx i
    change IntOp.andi (IntOp.cmpi .sge (main_arg0 i) 0#32) (IntOp.cmpi .slt (main_arg0 i) 120#32) = 1#1 at e
    rw [IntOp.andi_eq_one, IntOp.cmpi_sge, IntOp.cmpi_slt, z0, z120] at e
    exact e
  · have e := Host.reduce_andi_all _ _ _ _ _ he i
    change IntOp.andi (IntOp.cmpi .sge (main_arg2 i) 0#32) (IntOp.cmpi .slt (main_arg2 i) 6#32) = 1#1 at e
    rw [IntOp.andi_eq_one, IntOp.cmpi_sge, IntOp.cmpi_slt, z0, z6] at e
    exact e
  · have e := Host.reduce_andi_all _ _ _ _ _ hs i
    change IntOp.andi (IntOp.cmpi .sge (srcOf main_arg1 i) 0#32) (IntOp.cmpi .slt (srcOf main_arg1 i) 50000#32) = 1#1 at e
    rw [IntOp.andi_eq_one, IntOp.cmpi_sge, IntOp.cmpi_slt, z0, z50000] at e
    exact e

end Cert.PreDecode

end
-- ==== Proof.Spec.lean ====
import Idealize.ShloMosaic.Lib.ValueIdx
import Idealize.ShloMosaic.PureOps.Ideal.Laws

noncomputable section

namespace Cert.Spec

open Idealize.ShloMosaic Idealize.ShloMosaic.ValueIdx

abbrev epsBits : BitVec 32 := 0x3727C5AC#32

def encSpec {R nf nv : Nat} (hnv : 0 < nv) (x : IVec ⟨2, ![R, nf]⟩ 32) (emb : FVec Ideal ⟨3, ![nf, nv, 128]⟩ .f32) :
    FVec Ideal ⟨2, ![R, 128]⟩ .f32 :=
  fun i => ∑ f : Fin nf,
    emb (ix3 f (⟨min (x (ix2 (⟨(i 0).val, idx2_lt0 i⟩ : Fin R) f)).toInt.toNat (nv - 1), by omega⟩ : Fin nv)
      (⟨(i 1).val, idx2_lt1 i⟩ : Fin 128))

def msgSpec {E : Nat} (hs e : FVec Ideal ⟨2, ![E, 128]⟩ .f32) : FVec Ideal ⟨2, ![E, 128]⟩ .f32 :=
  fun i => max (hs i + e i) 0

def row (v : FVec Ideal ⟨1, ![128]⟩ .f32) : FVec Ideal ⟨2, ![1, 128]⟩ .f32 :=
  fun i => v (ix1 (⟨(i 1).val, idx2_lt1 i⟩ : Fin 128))

def hid {N : Nat} (h agg : FVec Ideal ⟨2, ![N, 128]⟩ .f32) (W1 : FVec Ideal ⟨2, ![128, 128]⟩ .f32)
    (b1 : FVec Ideal ⟨2, ![1, 128]⟩ .f32) (n : Fin N) (k : Fin 128) : EReal :=
  max ((∑ j : Fin 128, (h (ix2 n j) + agg (ix2 n j)) * W1 (ix2 j k)) + b1 (ix2 (0 : Fin 1) k)) 0

def updSpec {N : Nat} (h agg : FVec Ideal ⟨2, ![N, 128]⟩ .f32) (W1 : FVec Ideal ⟨2, ![128, 128]⟩ .f32)
    (b1 : FVec Ideal ⟨2, ![1, 128]⟩ .f32) (W2 : FVec Ideal ⟨2, ![128, 128]⟩ .f32) (b2 g beta mean var : FVec Ideal ⟨2, ![1, 128]⟩ .f32) :
    FVec Ideal ⟨2, ![N, 128]⟩ .f32 :=
  fun i =>
    let n : Fin N := ⟨(i 0).val, idx2_lt0 i⟩
    let d : Fin 128 := ⟨(i 1).val, idx2_lt1 i⟩
    let o : (⟨2, ![1, 128]⟩ : Shape).Idx := ix2 (0 : Fin 1) d
    h (ix2 n d) + max (((((∑ k : Fin 128, hid h agg W1 b1 n k * W2 (ix2 k d)) + b2 o) - mean o)
        * Ideal.rsqrt (var o + Ideal.ofBits .f32 epsBits)) * g o + beta o) 0

end Cert.Spec

end
-- ==== Proof.LibKeep.lean ====
import Idealize.ShloMosaic.Lib.StableHlo.Run

noncomputable section

namespace Cert.LibKeep

open Idealize.ShloMosaic Idealize.ShloMosaic.StableHlo Idealize.SL.Sem

variable {τ : Topo} {sig : RefSig} {Val : EltTy → Type}

/-- Every operation of the stretch writes only buffers numbered `lo` or more. -/
def WritesFrom (lo : ℕ) (ops : List (HloOp τ sig Val)) : Prop :=
  ops.Forall fun op => ∀ r : Ref sig .tc, Proc.devRef .tc r ∈ op.writes → lo ≤ r.idx.val

theorem ge_of_eq {y : Ref sig .tc} {lo : ℕ} (h : lo ≤ y.idx.val) (r : Ref sig .tc)
    (hr : Proc.devRef (τ := τ) .tc r = Proc.devRef .tc y) : lo ≤ r.idx.val :=
  Proc.devRef_injective _ hr ▸ h

/-- Buffers are numbered in program order, so a stretch that writes only buffers numbered `lo` or more leaves every
    earlier buffer as it was. -/
theorem after_keep (ops : List (HloOp τ sig Val)) (V : Valuation τ sig Val) (lo : ℕ) (hW : WritesFrom lo ops)
    (b : Ref sig .tc) (hb : b.idx.val < lo) : after ops V (Proc.devRef .tc b) = V (Proc.devRef .tc b) :=
  after_of_forall_not_mem ops V fun op hop hm =>
    absurd (List.forall_iff_forall_mem.mp hW op hop b hm) (Nat.not_le.mpr hb)

end Cert.LibKeep

end
-- ==== Proof.Keep.lean ====
import proofs.«416347_j65000035058412_3_alg».proof.Proof.Gen.KernelIdeal.Frame
import proofs.«416347_j65000035058412_3_alg».proof.Proof.LibKeep

noncomputable section

namespace Cert.KernelIdeal.Keep

open Cert.KernelIdeal Cert.KernelIdeal.Gen Cert.LibKeep
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

/-- Each host stretch writes only buffers numbered from its first result on. -/
theorem writes :
    WritesFrom 18 (hostOps2 (F := F)) ∧
    WritesFrom 22 (hostOps2_1 (F := F)) ∧
    WritesFrom 46 (hostOps3 (F := F)) ∧
    WritesFrom 73 (hostOps4 (F := F)) ∧
    WritesFrom 97 (hostOps5 (F := F)) ∧
    WritesFrom 124 (hostOps6 (F := F)) ∧
    WritesFrom 148 (hostOps7 (F := F)) ∧
    WritesFrom 175 (hostOps8 (F := F)) ∧
    WritesFrom 199 (hostOps9 (F := F)) ∧
    WritesFrom 226 (hostOps10 (F := F)) := by
  simp only [WritesFrom, hostOps2, hostOps2_1, hostOps3, hostOps4, hostOps5, hostOps6, hostOps7, hostOps8, hostOps9, hostOps10, List.flatten_cons, List.flatten_nil, List.append_nil,
    List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ge_of_eq (by decide)

/-- Segment `s` cannot change buffer `b`: `b` is none of a launch's arrays, or is numbered before every result of a host stretch. -/
def ok (b : Ref sig .tc) : ℕ → Bool
  | 0 => decide (∀ w, Pipeline.arrRef spec0 w ≠ b)
  | 1 => decide (∀ w, Pipeline.arrRef spec1 w ≠ b)
  | 2 => decide (b.idx.val < 18)
  | 3 => decide (b.idx.val < 22)
  | 4 => decide (∀ w, Pipeline.arrRef spec2 w ≠ b)
  | 5 => decide (b.idx.val < 46)
  | 6 => decide (∀ w, Pipeline.arrRef spec3 w ≠ b)
  | 7 => decide (b.idx.val < 73)
  | 8 => decide (∀ w, Pipeline.arrRef spec4 w ≠ b)
  | 9 => decide (b.idx.val < 97)
  | 10 => decide (∀ w, Pipeline.arrRef spec5 w ≠ b)
  | 11 => decide (b.idx.val < 124)
  | 12 => decide (∀ w, Pipeline.arrRef spec6 w ≠ b)
  | 13 => decide (b.idx.val < 148)
  | 14 => decide (∀ w, Pipeline.arrRef spec7 w ≠ b)
  | 15 => decide (b.idx.val < 175)
  | 16 => decide (∀ w, Pipeline.arrRef spec8 w ≠ b)
  | 17 => decide (b.idx.val < 199)
  | 18 => decide (∀ w, Pipeline.arrRef spec9 w ≠ b)
  | _ => decide (b.idx.val < 226)

section
variable (c : Dev nD) (b : Ref sig .tc)

/-- One segment at a time. -/
theorem s0 (h : ok b 0 = true) :
    W1 m ρ c (Proc.devRef .tc b) = W0 m ρ c (Proc.devRef .tc b) := W1_of_ne m ρ c b (of_decide_eq_true h)
theorem s1 (h : ok b 1 = true) :
    W2 m ρ c (Proc.devRef .tc b) = W1 m ρ c (Proc.devRef .tc b) := W2_of_ne m ρ c b (of_decide_eq_true h)
theorem s2 (h : ok b 2 = true) :
    W3 m ρ c (Proc.devRef .tc b) = W2 m ρ c (Proc.devRef .tc b) := after_keep _ _ _ (writes (F := F)).1 b (of_decide_eq_true h)
theorem s3 (h : ok b 3 = true) :
    W4 m ρ c (Proc.devRef .tc b) = W3 m ρ c (Proc.devRef .tc b) := after_keep _ _ _ (writes (F := F)).2.1 b (of_decide_eq_true h)
theorem s4 (h : ok b 4 = true) :
    W5 m ρ c (Proc.devRef .tc b) = W4 m ρ c (Proc.devRef .tc b) := W5_of_ne m ρ c b (of_decide_eq_true h)
theorem s5 (h : ok b 5 = true) :
    W6 m ρ c (Proc.devRef .tc b) = W5 m ρ c (Proc.devRef .tc b) := after_keep _ _ _ (writes (F := F)).2.2.1 b (of_decide_eq_true h)
theorem s6 (h : ok b 6 = true) :
    W7 m ρ c (Proc.devRef .tc b) = W6 m ρ c (Proc.devRef .tc b) := W7_of_ne m ρ c b (of_decide_eq_true h)
theorem s7 (h : ok b 7 = true) :
    W8 m ρ c (Proc.devRef .tc b) = W7 m ρ c (Proc.devRef .tc b) := after_keep _ _ _ (writes (F := F)).2.2.2.1 b (of_decide_eq_true h)
theorem s8 (h : ok b 8 = true) :
    W9 m ρ c (Proc.devRef .tc b) = W8 m ρ c (Proc.devRef .tc b) := W9_of_ne m ρ c b (of_decide_eq_true h)
theorem s9 (h : ok b 9 = true) :
    W10 m ρ c (Proc.devRef .tc b) = W9 m ρ c (Proc.devRef .tc b) := after_keep _ _ _ (writes (F := F)).2.2.2.2.1 b (of_decide_eq_true h)
theorem s10 (h : ok b 10 = true) :
    W11 m ρ c (Proc.devRef .tc b) = W10 m ρ c (Proc.devRef .tc b) := W11_of_ne m ρ c b (of_decide_eq_true h)
theorem s11 (h : ok b 11 = true) :
    W12 m ρ c (Proc.devRef .tc b) = W11 m ρ c (Proc.devRef .tc b) := after_keep _ _ _ (writes (F := F)).2.2.2.2.2.1 b (of_decide_eq_true h)
theorem s12 (h : ok b 12 = true) :
    W13 m ρ c (Proc.devRef .tc b) = W12 m ρ c (Proc.devRef .tc b) := W13_of_ne m ρ c b (of_decide_eq_true h)
theorem s13 (h : ok b 13 = true) :
    W14 m ρ c (Proc.devRef .tc b) = W13 m ρ c (Proc.devRef .tc b) := after_keep _ _ _ (writes (F := F)).2.2.2.2.2.2.1 b (of_decide_eq_true h)
theorem s14 (h : ok b 14 = true) :
    W15 m ρ c (Proc.devRef .tc b) = W14 m ρ c (Proc.devRef .tc b) := W15_of_ne m ρ c b (of_decide_eq_true h)
theorem s15 (h : ok b 15 = true) :
    W16 m ρ c (Proc.devRef .tc b) = W15 m ρ c (Proc.devRef .tc b) := after_keep _ _ _ (writes (F := F)).2.2.2.2.2.2.2.1 b (of_decide_eq_true h)
theorem s16 (h : ok b 16 = true) :
    W17 m ρ c (Proc.devRef .tc b) = W16 m ρ c (Proc.devRef .tc b) := W17_of_ne m ρ c b (of_decide_eq_true h)
theorem s17 (h : ok b 17 = true) :
    W18 m ρ c (Proc.devRef .tc b) = W17 m ρ c (Proc.devRef .tc b) := after_keep _ _ _ (writes (F := F)).2.2.2.2.2.2.2.2.1 b (of_decide_eq_true h)
theorem s18 (h : ok b 18 = true) :
    W19 m ρ c (Proc.devRef .tc b) = W18 m ρ c (Proc.devRef .tc b) := W19_of_ne m ρ c b (of_decide_eq_true h)
theorem s19 (h : ok b 19 = true) :
    W20 m ρ c (Proc.devRef .tc b) = W19 m ρ c (Proc.devRef .tc b) := after_keep _ _ _ (writes (F := F)).2.2.2.2.2.2.2.2.2 b (of_decide_eq_true h)

/-- The spans the program's reading uses: a buffer no segment from boundary `i` up to boundary `j` can change holds at `j` what it held at `i`. -/
theorem w0_1 (h : ∀ s < 1, 0 ≤ s → ok b s = true := by decide) :
    W1 m ρ c (Proc.devRef .tc b) = W0 m ρ c (Proc.devRef .tc b) :=
  s0 m ρ c b (h 0 (by decide) (by decide))
theorem w0_2 (h : ∀ s < 2, 0 ≤ s → ok b s = true := by decide) :
    W2 m ρ c (Proc.devRef .tc b) = W0 m ρ c (Proc.devRef .tc b) :=
  (s1 m ρ c b (h 1 (by decide) (by decide))).trans (w0_1 m ρ c b fun s h1 h2 => h s (by omega) h2)
theorem w0_5 (h : ∀ s < 5, 0 ≤ s → ok b s = true := by decide) :
    W5 m ρ c (Proc.devRef .tc b) = W0 m ρ c (Proc.devRef .tc b) :=
  (s4 m ρ c b (h 4 (by decide) (by decide))).trans ((s3 m ρ c b (h 3 (by decide) (by decide))).trans ((s2 m ρ c b (h 2 (by decide) (by decide))).trans (w0_2 m ρ c b fun s h1 h2 => h s (by omega) h2)))
theorem w0_9 (h : ∀ s < 9, 0 ≤ s → ok b s = true := by decide) :
    W9 m ρ c (Proc.devRef .tc b) = W0 m ρ c (Proc.devRef .tc b) :=
  (s8 m ρ c b (h 8 (by decide) (by decide))).trans ((s7 m ρ c b (h 7 (by decide) (by decide))).trans ((s6 m ρ c b (h 6 (by decide) (by decide))).trans ((s5 m ρ c b (h 5 (by decide) (by decide))).trans (w0_5 m ρ c b fun s h1 h2 => h s (by omega) h2))))
theorem w0_13 (h : ∀ s < 13, 0 ≤ s → ok b s = true := by decide) :
    W13 m ρ c (Proc.devRef .tc b) = W0 m ρ c (Proc.devRef .tc b) :=
  (s12 m ρ c b (h 12 (by decide) (by decide))).trans ((s11 m ρ c b (h 11 (by decide) (by decide))).trans ((s10 m ρ c b (h 10 (by decide) (by decide))).trans ((s9 m ρ c b (h 9 (by decide) (by decide))).trans (w0_9 m ρ c b fun s h1 h2 => h s (by omega) h2))))
theorem w0_17 (h : ∀ s < 17, 0 ≤ s → ok b s = true := by decide) :
    W17 m ρ c (Proc.devRef .tc b) = W0 m ρ c (Proc.devRef .tc b) :=
  (s16 m ρ c b (h 16 (by decide) (by decide))).trans ((s15 m ρ c b (h 15 (by decide) (by decide))).trans ((s14 m ρ c b (h 14 (by decide) (by decide))).trans ((s13 m ρ c b (h 13 (by decide) (by decide))).trans (w0_13 m ρ c b fun s h1 h2 => h s (by omega) h2))))
theorem w0_19 (h : ∀ s < 19, 0 ≤ s → ok b s = true := by decide) :
    W19 m ρ c (Proc.devRef .tc b) = W0 m ρ c (Proc.devRef .tc b) :=
  (s18 m ρ c b (h 18 (by decide) (by decide))).trans ((s17 m ρ c b (h 17 (by decide) (by decide))).trans (w0_17 m ρ c b fun s h1 h2 => h s (by omega) h2))
theorem w1_3 (h : ∀ s < 3, 1 ≤ s → ok b s = true := by decide) :
    W3 m ρ c (Proc.devRef .tc b) = W1 m ρ c (Proc.devRef .tc b) :=
  (s2 m ρ c b (h 2 (by decide) (by decide))).trans (s1 m ρ c b (h 1 (by decide) (by decide)))
theorem w1_6 (h : ∀ s < 6, 1 ≤ s → ok b s = true := by decide) :
    W6 m ρ c (Proc.devRef .tc b) = W1 m ρ c (Proc.devRef .tc b) :=
  (s5 m ρ c b (h 5 (by decide) (by decide))).trans ((s4 m ρ c b (h 4 (by decide) (by decide))).trans ((s3 m ρ c b (h 3 (by decide) (by decide))).trans (w1_3 m ρ c b fun s h1 h2 => h s (by omega) h2)))
theorem w2_4 (h : ∀ s < 4, 2 ≤ s → ok b s = true := by decide) :
    W4 m ρ c (Proc.devRef .tc b) = W2 m ρ c (Proc.devRef .tc b) :=
  (s3 m ρ c b (h 3 (by decide) (by decide))).trans (s2 m ρ c b (h 2 (by decide) (by decide)))
theorem w5_8 (h : ∀ s < 8, 5 ≤ s → ok b s = true := by decide) :
    W8 m ρ c (Proc.devRef .tc b) = W5 m ρ c (Proc.devRef .tc b) :=
  (s7 m ρ c b (h 7 (by decide) (by decide))).trans ((s6 m ρ c b (h 6 (by decide) (by decide))).trans (s5 m ρ c b (h 5 (by decide) (by decide))))
theorem w9_12 (h : ∀ s < 12, 9 ≤ s → ok b s = true := by decide) :
    W12 m ρ c (Proc.devRef .tc b) = W9 m ρ c (Proc.devRef .tc b) :=
  (s11 m ρ c b (h 11 (by decide) (by decide))).trans ((s10 m ρ c b (h 10 (by decide) (by decide))).trans (s9 m ρ c b (h 9 (by decide) (by decide))))
theorem w13_16 (h : ∀ s < 16, 13 ≤ s → ok b s = true := by decide) :
    W16 m ρ c (Proc.devRef .tc b) = W13 m ρ c (Proc.devRef .tc b) :=
  (s15 m ρ c b (h 15 (by decide) (by decide))).trans ((s14 m ρ c b (h 14 (by decide) (by decide))).trans (s13 m ρ c b (h 13 (by decide) (by decide))))
theorem w3_5 (h : ∀ s < 5, 3 ≤ s → ok b s = true := by decide) :
    W5 m ρ c (Proc.devRef .tc b) = W3 m ρ c (Proc.devRef .tc b) :=
  (s4 m ρ c b (h 4 (by decide) (by decide))).trans (s3 m ρ c b (h 3 (by decide) (by decide)))
theorem w3_7 (h : ∀ s < 7, 3 ≤ s → ok b s = true := by decide) :
    W7 m ρ c (Proc.devRef .tc b) = W3 m ρ c (Proc.devRef .tc b) :=
  (s6 m ρ c b (h 6 (by decide) (by decide))).trans ((s5 m ρ c b (h 5 (by decide) (by decide))).trans (w3_5 m ρ c b fun s h1 h2 => h s (by omega) h2))
theorem w3_9 (h : ∀ s < 9, 3 ≤ s → ok b s = true := by decide) :
    W9 m ρ c (Proc.devRef .tc b) = W3 m ρ c (Proc.devRef .tc b) :=
  (s8 m ρ c b (h 8 (by decide) (by decide))).trans ((s7 m ρ c b (h 7 (by decide) (by decide))).trans (w3_7 m ρ c b fun s h1 h2 => h s (by omega) h2))
theorem w3_11 (h : ∀ s < 11, 3 ≤ s → ok b s = true := by decide) :
    W11 m ρ c (Proc.devRef .tc b) = W3 m ρ c (Proc.devRef .tc b) :=
  (s10 m ρ c b (h 10 (by decide) (by decide))).trans ((s9 m ρ c b (h 9 (by decide) (by decide))).trans (w3_9 m ρ c b fun s h1 h2 => h s (by omega) h2))
theorem w3_13 (h : ∀ s < 13, 3 ≤ s → ok b s = true := by decide) :
    W13 m ρ c (Proc.devRef .tc b) = W3 m ρ c (Proc.devRef .tc b) :=
  (s12 m ρ c b (h 12 (by decide) (by decide))).trans ((s11 m ρ c b (h 11 (by decide) (by decide))).trans (w3_11 m ρ c b fun s h1 h2 => h s (by omega) h2))
theorem w3_15 (h : ∀ s < 15, 3 ≤ s → ok b s = true := by decide) :
    W15 m ρ c (Proc.devRef .tc b) = W3 m ρ c (Proc.devRef .tc b) :=
  (s14 m ρ c b (h 14 (by decide) (by decide))).trans ((s13 m ρ c b (h 13 (by decide) (by decide))).trans (w3_13 m ρ c b fun s h1 h2 => h s (by omega) h2))
theorem w3_17 (h : ∀ s < 17, 3 ≤ s → ok b s = true := by decide) :
    W17 m ρ c (Proc.devRef .tc b) = W3 m ρ c (Proc.devRef .tc b) :=
  (s16 m ρ c b (h 16 (by decide) (by decide))).trans ((s15 m ρ c b (h 15 (by decide) (by decide))).trans (w3_15 m ρ c b fun s h1 h2 => h s (by omega) h2))
theorem w7_10 (h : ∀ s < 10, 7 ≤ s → ok b s = true := by decide) :
    W10 m ρ c (Proc.devRef .tc b) = W7 m ρ c (Proc.devRef .tc b) :=
  (s9 m ρ c b (h 9 (by decide) (by decide))).trans ((s8 m ρ c b (h 8 (by decide) (by decide))).trans (s7 m ρ c b (h 7 (by decide) (by decide))))
theorem w11_14 (h : ∀ s < 14, 11 ≤ s → ok b s = true := by decide) :
    W14 m ρ c (Proc.devRef .tc b) = W11 m ρ c (Proc.devRef .tc b) :=
  (s13 m ρ c b (h 13 (by decide) (by decide))).trans ((s12 m ρ c b (h 12 (by decide) (by decide))).trans (s11 m ρ c b (h 11 (by decide) (by decide))))
theorem w15_18 (h : ∀ s < 18, 15 ≤ s → ok b s = true := by decide) :
    W18 m ρ c (Proc.devRef .tc b) = W15 m ρ c (Proc.devRef .tc b) :=
  (s17 m ρ c b (h 17 (by decide) (by decide))).trans ((s16 m ρ c b (h 16 (by decide) (by decide))).trans (s15 m ρ c b (h 15 (by decide) (by decide))))

end

/-- The edge features are read, never written, by each message launch. -/
theorem v1_4 (c : Dev nD) : W4 m ρ c (Proc.devRef .tc main_v1) = W2 m ρ c (Proc.devRef .tc main_v1) := w2_4 m ρ c main_v1
theorem v1_8 (c : Dev nD) : W8 m ρ c (Proc.devRef .tc main_v1) = W2 m ρ c (Proc.devRef .tc main_v1) :=
  (w5_8 m ρ c main_v1).trans (((W5_arr m ρ c 1).trans (((dat2 (V4 m ρ) c).arrAt_in 1 rfl _).trans (A_eq2 (V4 m ρ) c 1))).trans (v1_4 m ρ c))
theorem v1_12 (c : Dev nD) : W12 m ρ c (Proc.devRef .tc main_v1) = W2 m ρ c (Proc.devRef .tc main_v1) :=
  (w9_12 m ρ c main_v1).trans (((W9_arr m ρ c 1).trans (((dat4 (V8 m ρ) c).arrAt_in 1 rfl _).trans (A_eq4 (V8 m ρ) c 1))).trans (v1_8 m ρ c))
theorem v1_16 (c : Dev nD) : W16 m ρ c (Proc.devRef .tc main_v1) = W2 m ρ c (Proc.devRef .tc main_v1) :=
  (w13_16 m ρ c main_v1).trans (((W13_arr m ρ c 1).trans (((dat6 (V12 m ρ) c).arrAt_in 1 rfl _).trans (A_eq6 (V12 m ρ) c 1))).trans (v1_12 m ρ c))

end Cert.KernelIdeal.Keep

end
-- ==== Proof.LibPlainDot.lean ====
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibOneHot.lean ====
import Idealize.ShloMosaic.Lib.KernelVsHost

noncomputable section

namespace Cert.OneHot

open Idealize.ShloMosaic

/-- An equality test read as a number is 1 when the words agree and 0 when they differ. -/
theorem eqWord (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  rw [toInt_setWidth_bit]
  by_cases h : a = b
  · rw [if_pos h, beq_iff_eq.mpr h]; norm_num; rfl
  · rw [if_neg h, beq_eq_false_iff_ne.mpr h]; norm_num

/-- A word whose value lies in `[0, n)` is the numeral `v` exactly when its value is `v`. -/
theorem word_of_range {n : ℕ} (hn : n ≤ 2 ^ 31) (a : BitVec 32) (h : 0 ≤ a.toInt ∧ a.toInt < n) (v : Fin n) :
    a = BitVec.ofNat 32 v.val ↔ v.val = a.toInt.toNat := by
  have e := BitVec.toInt_eq_toNat_cond a
  have := a.isLt
  have := v.isLt
  constructor
  · intro h'
    have := congrArg BitVec.toNat h'
    rw [BitVec.toNat_ofNat] at this
    omega
  · intro h'
    apply BitVec.eq_of_toNat_eq
    rw [BitVec.toNat_ofNat]
    omega

/-- A one-hot row times a column is one entry of the column: `0 * t = 0` and `1 * t = t` in the extended reals. -/
theorem onehot_row {n : ℕ} (hn : n ≤ 2 ^ 31) (a : BitVec 32) (h : 0 ≤ a.toInt ∧ a.toInt < n) (H T : Fin n → EReal)
    (hH : ∀ v, H v = if a = BitVec.ofNat 32 v.val then 1 else 0) (p : min a.toInt.toNat (n - 1) < n) :
    ∑ v, H v * T v = T ⟨min a.toInt.toNat (n - 1), p⟩ := by
  rw [Finset.sum_eq_single (⟨min a.toInt.toNat (n - 1), p⟩ : Fin n)]
  · rw [hH, if_pos ((word_of_range hn a h _).mpr (by show min _ _ = _; omega)), one_mul]
  · intro v _ hv
    rw [hH, if_neg (fun hc => hv (Fin.ext (by
      have := (word_of_range hn a h v).mp hc
      show v.val = min _ _; omega))), zero_mul]
  · intro hn'; exact absurd (Finset.mem_univ _) hn'

end Cert.OneHot

end
-- ==== Proof.Enc0Pay.lean ====
import proofs.«416347_j65000035058412_3_alg».proof.Proof.Gen.KernelIdeal.Frame
import proofs.«416347_j65000035058412_3_alg».proof.Proof.Spec
import proofs.«416347_j65000035058412_3_alg».proof.Proof.LibPlainDot
import proofs.«416347_j65000035058412_3_alg».proof.Proof.LibOneHot
import Idealize.ShloMosaic.Lib.Pipeline.Value
import Idealize.ShloMosaic.Lib.ValueLayout

noncomputable section

namespace Cert.KernelIdeal.Enc0Pay

open Cert.KernelIdeal Cert.KernelIdeal.Gen
open Idealize.ShloMosaic Idealize.ShloMosaic.ValueIdx Cert.OneHot

def oneHot (c : Vec Ideal S1000x1 .i32) : FVec Ideal S1000x120 .f32 :=
  sitofp .f32 (extui 32 (cmpi .eq (broadcastTo S1000x120 c broadcasts_S1000x1_S1000x120)
    (iota .tc S1000x120 32 [1] iota_S1000x120_d1_w32)) natLt_1_32)

theorem oneHot_at (c : Vec Ideal S1000x1 .i32) (r : Fin 1000) (v : Fin 120) :
    oneHot c (ix2 r v) = if c (ix2 r (0 : Fin 1)) = BitVec.ofNat 32 v.val then 1 else 0 := by
  show FloatOps.sitofp .f32 ((IntOp.cmpi .eq (broadcastTo _ c _ (ix2 r v)) (iota _ _ _ _ _ (ix2 r v))).setWidth 32) = _
  rw [broadcastTo_apply c _ _ (ix2 r (0 : Fin 1)) fun a => by
    match a with
    | ⟨0, _⟩ => rfl
    | ⟨1, _⟩ => rfl]
  exact (eqWord _ _).trans (by rw [iota_single_apply])

def featProd (c : Vec Ideal S1000x1 .i32) (e : FVec Ideal S1x120x128 .f32) : FVec Ideal S1000x128 .f32 :=
  matmul dot_S1000x120_S120x128_S1000x128_1_0_0_1_n_n (some .fp32) (oneHot c)
    (shapeCast S120x128 e shapeCasts_S1x120x128_S120x128) (constant S1000x128 .f32 0x00000000#32)

theorem featProd_at (c : Vec Ideal S1000x1 .i32) (e : FVec Ideal S1x120x128 .f32) (r : Fin 1000) (d : Fin 128)
    (h : 0 ≤ (c (ix2 r (0 : Fin 1))).toInt ∧ (c (ix2 r (0 : Fin 1))).toInt < 120) :
    featProd c e (ix2 r d)
      = e (ix3 (0 : Fin 1) (⟨min (c (ix2 r (0 : Fin 1))).toInt.toNat 119, by omega⟩ : Fin 120) d) := by
  unfold featProd
  refine (Idealize.ShloMosaic.PlainDot.matmul_zero_apply dot_S1000x120_S120x128_S1000x128_1_0_0_1_n_n rfl rfl rfl rfl rfl rfl rfl rfl
    (some .fp32) _ _ r d).trans ?_
  exact (onehot_row (by decide) _ h _ _ (fun v => oneHot_at c r v) _).trans
    (shapeCast_1ab_ab_apply e shapeCasts_S1x120x128_S120x128 _ d)

theorem feat_at (x0 : Vec Ideal S1000x9 .i32) (x1 : Vec Ideal S9x120x128 .f32)
    (hx : ∀ i, 0 ≤ (x0 i).toInt ∧ (x0 i).toInt < 120) (f : Fin 9)
    (offc : Fin 2 → Nat) (inbc : ∀ a, offc a + S1000x1.size a ≤ S1000x9.size a)
    (offt : Fin 3 → Nat) (inbt : ∀ a, offt a + S1x120x128.size a ≤ S9x120x128.size a)
    (hc0 : offc 0 = 0) (hc1 : offc 1 = f.val) (ht0 : offt 0 = f.val) (ht1 : offt 1 = 0) (ht2 : offt 2 = 0)
    (r : Fin 1000) (d : Fin 128) :
    featProd (View.ld x0 (Rect.unit (s := S1000x9) offc S1000x1.size inbc))
        (View.ld x1 (Rect.unit (s := S9x120x128) offt S1x120x128.size inbt)) (ix2 r d)
      = x1 (ix3 f (⟨min (x0 (ix2 r f)).toInt.toNat 119, by omega⟩ : Fin 120) d) := by
  have hc : View.ld x0 (Rect.unit (s := S1000x9) offc S1000x1.size inbc) (ix2 r (0 : Fin 1)) = x0 (ix2 r f) :=
    congrArg x0 (funext fun a => Fin.ext (by
      match a with
      | ⟨0, _⟩ => show offc 0 + 1 * r.val = r.val; omega
      | ⟨1, _⟩ => show offc 1 + 1 * 0 = f.val; omega))
  rw [featProd_at _ _ r d (by rw [hc]; exact hx _)]
  simp only [hc]
  exact congrArg x1 (funext fun a => Fin.ext (by
    match a with
    | ⟨0, _⟩ => show offt 0 + 1 * 0 = f.val; omega
    | ⟨1, _⟩ => show offt 1 + 1 * min _ 119 = min _ 119; omega
    | ⟨2, _⟩ => show offt 2 + 1 * d.val = d.val; omega))

theorem sum9 {M : Type*} [AddCommMonoid M] (g : Fin 9 → M) :
    ∑ f : Fin 9, g f = 0 + g 0 + g 1 + g 2 + g 3 + g 4 + g 5 + g 6 + g 7 + g 8 := by
  simp only [Fin.sum_univ_castSucc, Fin.sum_univ_zero]; rfl

theorem out0 (x0 : Vec Ideal S1000x9 .i32) (x1 : Vec Ideal S9x120x128 .f32)
    (hx : ∀ i, 0 ≤ (x0 i).toInt ∧ (x0 i).toInt < 120) :
    out0_2 x0 x1 = Cert.Spec.encSpec (by decide) x0 x1 := by
  funext j
  obtain ⟨r, d, rfl⟩ : ∃ (r : Fin 1000) (d : Fin 128), j = ix2 r d := ⟨j 0, j 1, eq_ix2 j⟩
  unfold out0_2 k0_pay1 k0_pay2 k0_pay3 k0_pay4 k0_pay5
  rw [View.canon_unit_zero (by decide)]
  simp only [addf_apply, broadcast_apply]
  show _ = ∑ f : Fin 9, _
  rw [sum9]
  iterate 9 refine congrArg₂ (· + ·) ?_ (by refine feat_at x0 x1 hx _ _ _ _ _ ?_ ?_ ?_ ?_ ?_ r d <;> rfl)
  exact Ideal.ofBits_zero_f32

end Cert.KernelIdeal.Enc0Pay

end
-- ==== Proof.Enc1Pay.lean ====
import proofs.«416347_j65000035058412_3_alg».proof.Proof.Gen.KernelIdeal.Frame
import proofs.«416347_j65000035058412_3_alg».proof.Proof.Spec
import proofs.«416347_j65000035058412_3_alg».proof.Proof.LibPlainDot
import proofs.«416347_j65000035058412_3_alg».proof.Proof.LibOneHot
import Idealize.ShloMosaic.Lib.Pipeline.Value
import Idealize.ShloMosaic.Lib.ValueLayout

noncomputable section

namespace Cert.KernelIdeal.Enc1Pay

open Cert.KernelIdeal Cert.KernelIdeal.Gen
open Idealize.ShloMosaic Idealize.ShloMosaic.ValueIdx Cert.OneHot

def oneHot (c : Vec Ideal S1000x1 .i32) : FVec Ideal S1000x6 .f32 :=
  sitofp .f32 (extui 32 (cmpi .eq (broadcastTo S1000x6 c broadcasts_S1000x1_S1000x6)
    (iota .tc S1000x6 32 [1] iota_S1000x6_d1_w32)) natLt_1_32)

theorem oneHot_at (c : Vec Ideal S1000x1 .i32) (r : Fin 1000) (v : Fin 6) :
    oneHot c (ix2 r v) = if c (ix2 r (0 : Fin 1)) = BitVec.ofNat 32 v.val then 1 else 0 := by
  show FloatOps.sitofp .f32 ((IntOp.cmpi .eq (broadcastTo _ c _ (ix2 r v)) (iota _ _ _ _ _ (ix2 r v))).setWidth 32) = _
  rw [broadcastTo_apply c _ _ (ix2 r (0 : Fin 1)) fun a => by
    match a with
    | ⟨0, _⟩ => rfl
    | ⟨1, _⟩ => rfl]
  exact (eqWord _ _).trans (by rw [iota_single_apply])

def featProd (c : Vec Ideal S1000x1 .i32) (e : FVec Ideal S1x6x128 .f32) : FVec Ideal S1000x128 .f32 :=
  matmul dot_S1000x6_S6x128_S1000x128_1_0_0_1_n_n (some .fp32) (oneHot c)
    (shapeCast S6x128 e shapeCasts_S1x6x128_S6x128) (constant S1000x128 .f32 0x00000000#32)

theorem featProd_at (c : Vec Ideal S1000x1 .i32) (e : FVec Ideal S1x6x128 .f32) (r : Fin 1000) (d : Fin 128)
    (h : 0 ≤ (c (ix2 r (0 : Fin 1))).toInt ∧ (c (ix2 r (0 : Fin 1))).toInt < 6) :
    featProd c e (ix2 r d)
      = e (ix3 (0 : Fin 1) (⟨min (c (ix2 r (0 : Fin 1))).toInt.toNat 5, by omega⟩ : Fin 6) d) := by
  unfold featProd
  refine (Idealize.ShloMosaic.PlainDot.matmul_zero_apply dot_S1000x6_S6x128_S1000x128_1_0_0_1_n_n rfl rfl rfl rfl rfl rfl rfl rfl
    (some .fp32) _ _ r d).trans ?_
  exact (onehot_row (by decide) _ h _ _ (fun v => oneHot_at c r v) _).trans
    (shapeCast_1ab_ab_apply e shapeCasts_S1x6x128_S6x128 _ d)

theorem feat_at (x0 : Vec Ideal S1000x3 .i32) (x1 : Vec Ideal S3x6x128 .f32)
    (hx : ∀ i, 0 ≤ (x0 i).toInt ∧ (x0 i).toInt < 6) (f : Fin 3)
    (offc : Fin 2 → Nat) (inbc : ∀ a, offc a + S1000x1.size a ≤ S1000x3.size a)
    (offt : Fin 3 → Nat) (inbt : ∀ a, offt a + S1x6x128.size a ≤ S3x6x128.size a)
    (hc0 : offc 0 = 0) (hc1 : offc 1 = f.val) (ht0 : offt 0 = f.val) (ht1 : offt 1 = 0) (ht2 : offt 2 = 0)
    (r : Fin 1000) (d : Fin 128) :
    featProd (View.ld x0 (Rect.unit (s := S1000x3) offc S1000x1.size inbc))
        (View.ld x1 (Rect.unit (s := S3x6x128) offt S1x6x128.size inbt)) (ix2 r d)
      = x1 (ix3 f (⟨min (x0 (ix2 r f)).toInt.toNat 5, by omega⟩ : Fin 6) d) := by
  have hc : View.ld x0 (Rect.unit (s := S1000x3) offc S1000x1.size inbc) (ix2 r (0 : Fin 1)) = x0 (ix2 r f) :=
    congrArg x0 (funext fun a => Fin.ext (by
      match a with
      | ⟨0, _⟩ => show offc 0 + 1 * r.val = r.val; omega
      | ⟨1, _⟩ => show offc 1 + 1 * 0 = f.val; omega))
  rw [featProd_at _ _ r d (by rw [hc]; exact hx _)]
  simp only [hc]
  exact congrArg x1 (funext fun a => Fin.ext (by
    match a with
    | ⟨0, _⟩ => show offt 0 + 1 * 0 = f.val; omega
    | ⟨1, _⟩ => show offt 1 + 1 * min _ 5 = min _ 5; omega
    | ⟨2, _⟩ => show offt 2 + 1 * d.val = d.val; omega))

theorem sum3 {M : Type*} [AddCommMonoid M] (g : Fin 3 → M) :
    ∑ f : Fin 3, g f = 0 + g 0 + g 1 + g 2  := by
  simp only [Fin.sum_univ_castSucc, Fin.sum_univ_zero]; rfl

theorem out1 (x0 : Vec Ideal S1000x3 .i32) (x1 : Vec Ideal S3x6x128 .f32)
    (hx : ∀ i, 0 ≤ (x0 i).toInt ∧ (x0 i).toInt < 6) :
    out1_2 x0 x1 = Cert.Spec.encSpec (by decide) x0 x1 := by
  funext j
  obtain ⟨r, d, rfl⟩ : ∃ (r : Fin 1000) (d : Fin 128), j = ix2 r d := ⟨j 0, j 1, eq_ix2 j⟩
  unfold out1_2 k1_pay1
  rw [View.canon_unit_zero (by decide)]
  simp only [addf_apply, broadcast_apply]
  show _ = ∑ f : Fin 3, _
  rw [sum3]
  iterate 3 refine congrArg₂ (· + ·) ?_ (by refine feat_at x0 x1 hx _ _ _ _ _ ?_ ?_ ?_ ?_ ?_ r d <;> rfl)
  exact Ideal.ofBits_zero_f32

end Cert.KernelIdeal.Enc1Pay

end
-- ==== Proof.Upd3Pay.lean ====
import proofs.«416347_j65000035058412_3_alg».proof.Proof.Gen.KernelIdeal.Frame
import proofs.«416347_j65000035058412_3_alg».proof.Proof.Spec
import proofs.«416347_j65000035058412_3_alg».proof.Proof.LibPlainDot
import Idealize.ShloMosaic.Lib.Pipeline.Value
import Idealize.ShloMosaic.Lib.ValueLayout

noncomputable section

namespace Cert.KernelIdeal.Upd3Pay

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

theorem zeros2 : (![0, 0] : Fin 2 → Nat) = fun _ => 0 := funext fun a => by fin_cases a <;> rfl

theorem prod_apply {φ₁ φ₂ : FTy} (prec : Option ContractPrecision) (l : FVec Ideal S5000x128 φ₁) (r : FVec Ideal S128x128 φ₂)
    (p : Fin 5000) (q : Fin 128) :
    matmul dot_S5000x128_S128x128_S5000x128_1_0_0_1_n_n prec l r (constant (F := Ideal) S5000x128 .f32 0x00000000#32) (ix2 p q)
      = ∑ k : Fin 128, l (ix2 p k) * r (ix2 k q) :=
  PlainDot.matmul_zero_apply (M := 5000) (K := 128) (N := 128) dot_S5000x128_S128x128_S5000x128_1_0_0_1_n_n
    rfl rfl rfl rfl rfl rfl rfl rfl prec l r p q

theorem rsqrt_apply {s : Shape} {φ : FTy} (a : FVec Ideal s φ) (i : s.Idx) : rsqrt a i = Ideal.rsqrt (a i) := rfl

theorem norm_apply (v0 v2 : FVec Ideal S5000x128 .f32) (v5 : FVec Ideal S128x128 .f32) (v10 : FVec Ideal S1x128 .f32)
    (v16 : FVec Ideal S128x128 .f32) (v21 v25 v29 : FVec Ideal S1x128 .f32) (r : Fin 5000) (d : Fin 128) :
    k3_pay2 (F := Ideal) v0 v2 v5 v10 v16 v21 v25 v29 (ix2 r d)
      = (((∑ k : Fin 128, Cert.Spec.hid v0 v2 v5 v10 r k * v16 (ix2 k d)) + v21 (ix2 (0 : Fin 1) d)) - v25 (ix2 (0 : Fin 1) d))
          * Ideal.rsqrt (v29 (ix2 (0 : Fin 1) d) + Ideal.ofBits .f32 Cert.Spec.epsBits) := by
  unfold k3_pay2
  simp only [shapeCast_self, mulf_apply, subf_apply, addf_apply, maximumf_apply, truncf_apply, broadcastTo_1b_ab_apply,
    broadcast_apply, rsqrt_apply, prod_apply, Ideal.ofBits_def, Ideal.ofBits_zero_f32, Cert.Spec.hid]

theorem resid_apply (v35 : FVec Ideal S5000x128 .f32) (v36 v40 : FVec Ideal S1x128 .f32) (v44 : FVec Ideal S5000x128 .f32)
    (r : Fin 5000) (d : Fin 128) :
    k3_pay1 (F := Ideal) v35 v36 v40 v44 (ix2 r d)
      = v44 (ix2 r d) + max (v35 (ix2 r d) * v36 (ix2 (0 : Fin 1) d) + v40 (ix2 (0 : Fin 1) d)) 0 := by
  unfold k3_pay1
  simp only [shapeCast_self, mulf_apply, addf_apply, maximumf_apply, broadcastTo_1b_ab_apply, broadcast_apply,
    Ideal.ofBits_def, Ideal.ofBits_zero_f32]

theorem out3 (x0 x1 : Vec Ideal S5000x128 .f32) (x2 : Vec Ideal S128x128 .f32) (x3 : Vec Ideal S1x128 .f32) (x4 : Vec Ideal S128x128 .f32)
    (x5 x6 x7 x8 x9 : Vec Ideal S1x128 .f32) :
    out3_10 x0 x1 x2 x3 x4 x5 x6 x7 x8 x9 = Cert.Spec.updSpec x0 x1 x2 x3 x4 x5 x6 x7 x8 x9 := by
  funext j
  obtain ⟨r, d, rfl⟩ : ∃ (r : Fin 5000) (d : Fin 128), j = ix2 r d := ⟨j 0, j 1, eq_ix2 j⟩
  unfold out3_10
  rw [View.canon_unit_zero zeros2]
  simp only [View.ld_unit_zero (S := S5000x128) zeros2, View.ld_unit_zero (S := S128x128) zeros2,
    View.ld_unit_zero (S := S1x128) zeros2]
  refine (resid_apply (k3_pay2 (F := Ideal) x0 x1 x2 x3 x4 x5 x8 x9) x6 x7 x0 r d).trans ?_
  refine (congrArg (fun u : EReal => x0 (ix2 r d) + max (u * x6 (ix2 (0 : Fin 1) d) + x7 (ix2 (0 : Fin 1) d)) 0)
    (norm_apply x0 x1 x2 x3 x4 x5 x8 x9 r d)).trans ?_
  rfl

theorem same5 : @out5_10 Ideal _ = @out3_10 Ideal _ := rfl

theorem out5 (x0 x1 : Vec Ideal S5000x128 .f32) (x2 : Vec Ideal S128x128 .f32) (x3 : Vec Ideal S1x128 .f32) (x4 : Vec Ideal S128x128 .f32)
    (x5 x6 x7 x8 x9 : Vec Ideal S1x128 .f32) :
    out5_10 x0 x1 x2 x3 x4 x5 x6 x7 x8 x9 = Cert.Spec.updSpec x0 x1 x2 x3 x4 x5 x6 x7 x8 x9 :=
  (congrFun (congrFun (congrFun (congrFun (congrFun (congrFun (congrFun (congrFun (congrFun (congrFun same5 x0) x1) x2) x3) x4) x5) x6) x7) x8) x9).trans
    (out3 x0 x1 x2 x3 x4 x5 x6 x7 x8 x9)

theorem same7 : @out7_10 Ideal _ = @out3_10 Ideal _ := rfl

theorem out7 (x0 x1 : Vec Ideal S5000x128 .f32) (x2 : Vec Ideal S128x128 .f32) (x3 : Vec Ideal S1x128 .f32) (x4 : Vec Ideal S128x128 .f32)
    (x5 x6 x7 x8 x9 : Vec Ideal S1x128 .f32) :
    out7_10 x0 x1 x2 x3 x4 x5 x6 x7 x8 x9 = Cert.Spec.updSpec x0 x1 x2 x3 x4 x5 x6 x7 x8 x9 :=
  (congrFun (congrFun (congrFun (congrFun (congrFun (congrFun (congrFun (congrFun (congrFun (congrFun same7 x0) x1) x2) x3) x4) x5) x6) x7) x8) x9).trans
    (out3 x0 x1 x2 x3 x4 x5 x6 x7 x8 x9)

theorem same9 : @out9_10 Ideal _ = @out3_10 Ideal _ := rfl

theorem out9 (x0 x1 : Vec Ideal S5000x128 .f32) (x2 : Vec Ideal S128x128 .f32) (x3 : Vec Ideal S1x128 .f32) (x4 : Vec Ideal S128x128 .f32)
    (x5 x6 x7 x8 x9 : Vec Ideal S1x128 .f32) :
    out9_10 x0 x1 x2 x3 x4 x5 x6 x7 x8 x9 = Cert.Spec.updSpec x0 x1 x2 x3 x4 x5 x6 x7 x8 x9 :=
  (congrFun (congrFun (congrFun (congrFun (congrFun (congrFun (congrFun (congrFun (congrFun (congrFun same9 x0) x1) x2) x3) x4) x5) x6) x7) x8) x9).trans
    (out3 x0 x1 x2 x3 x4 x5 x6 x7 x8 x9)

end Cert.KernelIdeal.Upd3Pay

end
-- ==== Proof.Reg0.lean ====
import proofs.«416347_j65000035058412_3_alg».proof.Proof.Gen.KernelIdeal.Frame
import proofs.«416347_j65000035058412_3_alg».proof.Proof.Spec
import Idealize.ShloMosaic.Lib.Pipeline.Value

noncomputable section

namespace Cert.KernelIdeal.Reg0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem enc_row (xb : IVec S1000x9 32) (X : IVec S50000x9 32) (eb E : FVec Ideal S9x120x128 .f32)
    (j : S1000x128.Idx) (i : S50000x128.Idx) (hd : (i 1).val = (j 1).val)
    (hrow : ∀ f : Fin 9, xb (ix2 (⟨(j 0).val, idx2_lt0 j⟩ : Fin 1000) f)
      = X (ix2 (⟨(i 0).val, idx2_lt0 i⟩ : Fin 50000) f))
    (hemb : eb = E) :
    Cert.Spec.encSpec (by decide) xb eb j = Cert.Spec.encSpec (by decide) X E i := by
  subst hemb
  exact Finset.sum_congr rfl fun f _ => by simp only [hrow f, hd]

/-- At point `t` the index array and the output are cut at block `t` of the rows; the table's block is the whole table. -/
theorem idx : ∀ t : Fin cfg0.N, win0_0.index t 0 = win0_2.index t 0 ∧ win0_0.index t 1 = 0
    ∧ (∀ a : Fin 3, win0_1.index t a = 0) ∧ win0_2.index t 0 = t.val ∧ win0_2.index t 1 = 0 :=
  (by decide +kernel : ∀ t : Fin grid0.N, _)

theorem flushed_eq (c : Dev nD) (t : Fin cfg0.N)
    (h : out0_2 (iblk0 V c 0 t) (iblk0 V c 1 t) = Cert.Spec.encSpec (by decide) (iblk0 V c 0 t) (iblk0 V c 1 t)) :
    (dat0 V c).flushed 2 t
      = ((cfg0.win 2).blk t).view.read (Elt Ideal)
          (Cert.Spec.encSpec (by decide) (V c main_arg0) (V c main_arg4)) := by
  obtain ⟨e0, e1, e2, -, e4⟩ := idx t
  unfold Dat.flushed
  rw [after0_2, h]
  funext j
  refine enc_row _ _ _ _ j _ (win0_2.rect_emb_val_of_index_zero t _ e4 j) (fun f => ?_) (funext fun y => ?_)
  · refine congrArg (V c main_arg0) (funext fun a => Fin.ext ?_)
    match a with
    | ⟨0, _⟩ => exact congrArg (· * _ + _) e0
    | ⟨1, _⟩ => exact win0_0.rect_emb_val_of_index_zero t _ e1 _
  · exact congrArg (V c main_arg4) (funext fun a => Fin.ext (win0_1.rect_emb_val_of_index_zero t a (e2 a) y))

/-- Row `r` lies in block `r / 1000`. -/
theorem cover (i : S50000x128.Idx) :
    ∃ t : Fin cfg0.N, (cfg0.win 2).flush t = true ∧ i ∈ ((cfg0.win 2).blk t).view.set := by
  have h0 := idx2_lt0 i
  have h1 := idx2_lt1 i
  obtain ⟨t, ht⟩ : ∃ t : Fin cfg0.N, t.val = (i 0).val / 1000 :=
    ⟨Fin.cast N_0.symm ⟨(i 0).val / 1000, by omega⟩, rfl⟩
  obtain ⟨-, -, -, q0, q1⟩ := idx t
  refine ⟨t, flush0_2 t, ?_⟩
  show i ∈ ((View.whole main_v0).slice (win0_2.rect t)).set
  rw [View.set_slice_whole, Rect.mem_set_unit]
  refine Fin.forall_fin_two.mpr ?_
  show (_ * 1000 ≤ _ ∧ _ < _ * 1000 + 1000) ∧ _ * 128 ≤ _ ∧ _ < _ * 128 + 128
  omega

theorem arr
    (hout : ∀ (x0 : Vec Ideal S1000x9 .i32) (x1 : Vec Ideal S9x120x128 .f32),
      (∀ i, 0 ≤ (x0 i).toInt ∧ (x0 i).toInt < 120) → out0_2 x0 x1 = Cert.Spec.encSpec (by decide) x0 x1)
    (c : Dev nD) (hx : ∀ i, 0 ≤ (V c main_arg0 i).toInt ∧ (V c main_arg0 i).toInt < 120) :
    (dat0 V c).arrAt 2 cfg0.N = Cert.Spec.encSpec (by decide) (V c main_arg0) (V c main_arg4) :=
  (dat0 V c).arrAt_eq_of_cover 2 _ (fun t _ => flushed_eq V c t (hout _ _ fun i => hx _)) cover

end Cert.KernelIdeal.Reg0

end
-- ==== Proof.Reg1.lean ====
import proofs.«416347_j65000035058412_3_alg».proof.Proof.Gen.KernelIdeal.Frame
import proofs.«416347_j65000035058412_3_alg».proof.Proof.Spec
import Idealize.ShloMosaic.Lib.Pipeline.Value

noncomputable section

namespace Cert.KernelIdeal.Reg1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem enc_row (xb : IVec S1000x3 32) (X : IVec S500000x3 32) (eb E : FVec Ideal S3x6x128 .f32)
    (j : S1000x128.Idx) (i : S500000x128.Idx) (hd : (i 1).val = (j 1).val)
    (hrow : ∀ f : Fin 3, xb (ix2 (⟨(j 0).val, idx2_lt0 j⟩ : Fin 1000) f)
      = X (ix2 (⟨(i 0).val, idx2_lt0 i⟩ : Fin 500000) f))
    (hemb : eb = E) :
    Cert.Spec.encSpec (by decide) xb eb j = Cert.Spec.encSpec (by decide) X E i := by
  subst hemb
  exact Finset.sum_congr rfl fun f _ => by simp only [hrow f, hd]

/-- At point `t` the index array and the output are cut at block `t` of the rows; the table's block is the whole table. -/
theorem idx : ∀ t : Fin cfg1.N, win1_0.index t 0 = win1_2.index t 0 ∧ win1_0.index t 1 = 0
    ∧ (∀ a : Fin 3, win1_1.index t a = 0) ∧ win1_2.index t 0 = t.val ∧ win1_2.index t 1 = 0 :=
  (by decide +kernel : ∀ t : Fin grid1.N, _)

theorem flushed_eq (c : Dev nD) (t : Fin cfg1.N)
    (h : out1_2 (iblk1 V c 0 t) (iblk1 V c 1 t) = Cert.Spec.encSpec (by decide) (iblk1 V c 0 t) (iblk1 V c 1 t)) :
    (dat1 V c).flushed 2 t
      = ((cfg1.win 2).blk t).view.read (Elt Ideal)
          (Cert.Spec.encSpec (by decide) (V c main_arg2) (V c main_arg5)) := by
  obtain ⟨e0, e1, e2, -, e4⟩ := idx t
  unfold Dat.flushed
  rw [after1_2, h]
  funext j
  refine enc_row _ _ _ _ j _ (win1_2.rect_emb_val_of_index_zero t _ e4 j) (fun f => ?_) (funext fun y => ?_)
  · refine congrArg (V c main_arg2) (funext fun a => Fin.ext ?_)
    match a with
    | ⟨0, _⟩ => exact congrArg (· * _ + _) e0
    | ⟨1, _⟩ => exact win1_0.rect_emb_val_of_index_zero t _ e1 _
  · exact congrArg (V c main_arg5) (funext fun a => Fin.ext (win1_1.rect_emb_val_of_index_zero t a (e2 a) y))

/-- Row `r` lies in block `r / 1000`. -/
theorem cover (i : S500000x128.Idx) :
    ∃ t : Fin cfg1.N, (cfg1.win 2).flush t = true ∧ i ∈ ((cfg1.win 2).blk t).view.set := by
  have h0 := idx2_lt0 i
  have h1 := idx2_lt1 i
  obtain ⟨t, ht⟩ : ∃ t : Fin cfg1.N, t.val = (i 0).val / 1000 :=
    ⟨Fin.cast N_1.symm ⟨(i 0).val / 1000, by omega⟩, rfl⟩
  obtain ⟨-, -, -, q0, q1⟩ := idx t
  refine ⟨t, flush1_2 t, ?_⟩
  show i ∈ ((View.whole main_v1).slice (win1_2.rect t)).set
  rw [View.set_slice_whole, Rect.mem_set_unit]
  refine Fin.forall_fin_two.mpr ?_
  show (_ * 1000 ≤ _ ∧ _ < _ * 1000 + 1000) ∧ _ * 128 ≤ _ ∧ _ < _ * 128 + 128
  omega

theorem arr
    (hout : ∀ (x0 : Vec Ideal S1000x3 .i32) (x1 : Vec Ideal S3x6x128 .f32),
      (∀ i, 0 ≤ (x0 i).toInt ∧ (x0 i).toInt < 6) → out1_2 x0 x1 = Cert.Spec.encSpec (by decide) x0 x1)
    (c : Dev nD) (hx : ∀ i, 0 ≤ (V c main_arg2 i).toInt ∧ (V c main_arg2 i).toInt < 6) :
    (dat1 V c).arrAt 2 cfg1.N = Cert.Spec.encSpec (by decide) (V c main_arg2) (V c main_arg5) :=
  (dat1 V c).arrAt_eq_of_cover 2 _ (fun t _ => flushed_eq V c t (hout _ _ fun i => hx _)) cover

end Cert.KernelIdeal.Reg1

end
-- ==== Proof.Reg2.lean ====
import proofs.«416347_j65000035058412_3_alg».proof.Proof.Gen.KernelIdeal.Frame
import proofs.«416347_j65000035058412_3_alg».proof.Proof.Spec
import Idealize.ShloMosaic.Lib.Pipeline.Value

noncomputable section

namespace Cert.KernelIdeal.Reg2

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem pay_apply (x0 x1 : Vec Ideal S5000x128 .f32) (j : S5000x128.Idx) :
    k2_pay1 x0 x1 j = max (x0 j + x1 j) 0 := by
  rw [k2_pay1, shapeCast_self, shapeCast_self]
  exact congrArg (max _) Ideal.ofBits_zero_f32

/-- At point `t` all three arrays are cut at the same block: block `t` of the rows, all the columns. -/
theorem idx : ∀ t : Fin cfg2.N, (∀ a : Fin 2, win2_0.index t a = win2_2.index t a ∧ win2_1.index t a = win2_2.index t a)
    ∧ win2_2.index t 0 = t.val ∧ win2_2.index t 1 = 0 :=
  (by decide +kernel : ∀ t : Fin grid2.N, _)

theorem flushed_eq (c : Dev nD) (t : Fin cfg2.N) :
    (dat2 V c).flushed 2 t
      = ((cfg2.win 2).blk t).view.read (Elt Ideal) (Cert.Spec.msgSpec (V c main_v6) (V c main_v1)) := by
  have z : (![0, 0] : Fin 2 → Nat) = fun _ => 0 := by decide
  unfold Dat.flushed
  rw [after2_2, out2_2, View.canon_unit_zero z, View.ld_unit_zero (S := S5000x128) z,
    View.ld_unit_zero (S := S5000x128) z]
  funext j
  have r0 : iblk2 V c 0 t j = V c main_v6 (((cfg2.win 2).blk t).view.emb j) :=
    congrArg (V c main_v6) (funext fun a => Fin.ext (congrArg (· * S5000x128.size a + 1 * (j a).val) ((idx t).1 a).1))
  have r1 : iblk2 V c 1 t j = V c main_v1 (((cfg2.win 2).blk t).view.emb j) :=
    congrArg (V c main_v1) (funext fun a => Fin.ext (congrArg (· * S5000x128.size a + 1 * (j a).val) ((idx t).1 a).2))
  show k2_pay1 _ _ j = _
  rw [pay_apply, r0, r1]
  rfl

/-- Row `r` lies in block `r / 5000`. -/
theorem cover (i : S500000x128.Idx) :
    ∃ t : Fin cfg2.N, (cfg2.win 2).flush t = true ∧ i ∈ ((cfg2.win 2).blk t).view.set := by
  have h0 := idx2_lt0 i
  have h1 := idx2_lt1 i
  obtain ⟨t, ht⟩ : ∃ t : Fin cfg2.N, t.val = (i 0).val / 5000 :=
    ⟨Fin.cast N_2.symm ⟨(i 0).val / 5000, by omega⟩, rfl⟩
  obtain ⟨-, q0, q1⟩ := idx t
  refine ⟨t, flush2_2 t, ?_⟩
  show i ∈ ((View.whole main_v7).slice (win2_2.rect t)).set
  rw [View.set_slice_whole, Rect.mem_set_unit]
  refine Fin.forall_fin_two.mpr ?_
  show (_ * 5000 ≤ _ ∧ _ < _ * 5000 + 5000) ∧ _ * 128 ≤ _ ∧ _ < _ * 128 + 128
  omega

theorem arr (c : Dev nD) : (dat2 V c).arrAt 2 cfg2.N = Cert.Spec.msgSpec (V c main_v6) (V c main_v1) :=
  (dat2 V c).arrAt_eq_of_cover 2 _ (fun t _ => flushed_eq V c t) cover

end Cert.KernelIdeal.Reg2

end
-- ==== Proof.Reg3.lean ====
import proofs.«416347_j65000035058412_3_alg».proof.Proof.Gen.KernelIdeal.Frame
import proofs.«416347_j65000035058412_3_alg».proof.Proof.Spec
import Idealize.ShloMosaic.Lib.Pipeline.Value

namespace Cert.KernelIdeal.Reg3

open Cert.KernelIdeal Cert.KernelIdeal.Gen
open Idealize.ShloMosaic Idealize.ShloMosaic.TcCoe Idealize.ShloMosaic.ValueIdx
open Idealize.ShloMosaic.Pipeline (Dat Window)

variable (V : (c : Dev nD) → (b : Ref sig .tc) → Buf (Elt Ideal) ((c : Thread nD τ).loc b))

-- The update at an entry reads only that entry's row of the two row arguments, so it commutes with taking a block of rows.
theorem upd_blk {N M : Nat} (H A : FVec Ideal ⟨2, ![M, 128]⟩ .f32) {W1 W2 : FVec Ideal ⟨2, ![128, 128]⟩ .f32}
    {b1 b2 g beta mean var : FVec Ideal ⟨2, ![1, 128]⟩ .f32} {e0 e1 e : (⟨2, ![N, 128]⟩ : Shape).Idx → (⟨2, ![M, 128]⟩ : Shape).Idx}
    {q0 q1 q s : Fin 2 → Nat} (h0 : ∀ y a, (e0 y a : Nat) = q0 a * s a + y a) (h1 : ∀ y a, (e1 y a : Nat) = q1 a * s a + y a)
    (h : ∀ y a, (e y a : Nat) = q a * s a + y a) (r0 : q = q0) (r1 : q = q1) (z : q 1 = 0) (i : (⟨2, ![N, 128]⟩ : Shape).Idx) :
    Cert.Spec.updSpec (fun y => H (e0 y)) (fun y => A (e1 y)) W1 b1 W2 b2 g beta mean var i
      = Cert.Spec.updSpec H A W1 b1 W2 b2 g beta mean var (e i) := by
  obtain rfl := r0
  obtain rfl := r1
  obtain rfl : e = e0 := funext fun y => funext fun a => Fin.ext ((h y a).trans (h0 y a).symm)
  obtain rfl : e = e1 := funext fun y => funext fun a => Fin.ext ((h y a).trans (h1 y a).symm)
  have c (y) : (e y 1 : Nat) = y 1 := by rw [h, z, Nat.zero_mul, Nat.zero_add]
  have k (j : Fin 128) : e (ix2 ⟨(i 0).val, idx2_lt0 i⟩ j) = ix2 ⟨(e i 0).val, idx2_lt0 _⟩ j :=
    funext (Fin.forall_fin_two.2 ⟨Fin.ext ((h _ 0).trans (h i 0).symm), Fin.ext (c _)⟩)
  have d : (⟨(e i 1).val, idx2_lt1 _⟩ : Fin 128) = ⟨(i 1).val, idx2_lt1 i⟩ := Fin.ext (c i)
  unfold Cert.Spec.updSpec Cert.Spec.hid
  simp only [d, k]

theorem row_idx : ∀ t : Fin cfg3.N, ∀ a, win3_10.index t a = win3_0.index t a ∧ win3_10.index t a = win3_1.index t a
    ∧ win3_10.index t a = ![t.val, 0] a := by
  decide +kernel

theorem zero_idx : ∀ (t : Fin cfg3.N) (w : Fin 11), 2 ≤ w.val → w.val ≤ 9 → ∀ a, (cfg3.win w).index t a = 0 := by
  decide +kernel

-- A block as large as its array, at block index zero, is the array.
theorem whole (c : Dev nD) (t : Fin cfg3.N) :
    iblk3 V c 2 t = V c main_v12 ∧ iblk3 V c 3 t = V c main_v27 ∧ iblk3 V c 4 t = V c main_v16 ∧ iblk3 V c 5 t = V c main_v28
    ∧ iblk3 V c 6 t = V c main_v29 ∧ iblk3 V c 7 t = V c main_v30 ∧ iblk3 V c 8 t = V c main_v31 ∧ iblk3 V c 9 t = V c main_v32 := by
  and_intros <;> exact funext fun y => congrArg _ (funext fun a => Fin.ext
    (Window.rect_emb_val_of_index_zero _ t a (zero_idx t _ (by decide) (by decide) a) y))

-- Row r lies in the block of rows numbered r / 5000.
theorem cover (i : S50000x128.Idx) :
    ∃ t : Fin cfg3.N, (cfg3.win 10).flush t = true ∧ i ∈ ((cfg3.win 10).blk t).view.set := by
  have hi0 : (i 0).val < 50000 := (i 0).isLt
  have hi1 : (i 1).val < 128 := (i 1).isLt
  obtain ⟨t, ht⟩ : ∃ t : Fin cfg3.N, t.val = (i 0).val / 5000 :=
    ⟨Fin.cast N_3.symm ⟨(i 0).val / 5000, by omega⟩, rfl⟩
  have q0 : win3_10.index t 0 = t.val := (row_idx t 0).2.2
  have q1 : win3_10.index t 1 = 0 := (row_idx t 1).2.2
  refine ⟨t, flush3_10 t, ?_⟩
  rw [show ((cfg3.win 10).blk t).view.set = (win3_10.rect t).set from View.set_slice_whole _ _, Rect.mem_set_unit]
  exact Fin.forall_fin_two.2 ⟨by show _ * 5000 ≤ _ ∧ _ < _ * 5000 + 5000; omega, by show _ * 128 ≤ _ ∧ _ < _ * 128 + 128; omega⟩

theorem arr (hout : ∀ (x0 x1 : Vec Ideal S5000x128 .f32) (x2 : Vec Ideal S128x128 .f32) (x3 : Vec Ideal S1x128 .f32)
      (x4 : Vec Ideal S128x128 .f32) (x5 x6 x7 x8 x9 : Vec Ideal S1x128 .f32),
      out3_10 x0 x1 x2 x3 x4 x5 x6 x7 x8 x9 = Cert.Spec.updSpec x0 x1 x2 x3 x4 x5 x6 x7 x8 x9) (c : Dev nD) :
      (dat3 V c).arrAt 10 cfg3.N
        = Cert.Spec.updSpec (V c main_v0) (V c main_v10) (V c main_v12) (V c main_v27) (V c main_v16)
          (V c main_v28) (V c main_v29) (V c main_v30) (V c main_v31) (V c main_v32) :=
  (dat3 V c).arrAt_eq_of_cover 10 _ (fun t _ => by
    obtain ⟨w2, w3, w4, w5, w6, w7, w8, w9⟩ := whole V c t
    rw [Dat.flushed, after3_10, hout, w2, w3, w4, w5, w6, w7, w8, w9]
    exact funext fun j => upd_blk (V c main_v0) (V c main_v10) (win3_0.rect_emb_val t)
      (win3_1.rect_emb_val t) (win3_10.rect_emb_val t) (funext fun a => (row_idx t a).1) (funext fun a => (row_idx t a).2.1)
      (row_idx t 1).2.2 j) cover

end Cert.KernelIdeal.Reg3
-- ==== Proof.Reg4.lean ====
import proofs.«416347_j65000035058412_3_alg».proof.Proof.Gen.KernelIdeal.Frame
import proofs.«416347_j65000035058412_3_alg».proof.Proof.Spec
import Idealize.ShloMosaic.Lib.Pipeline.Value

noncomputable section

namespace Cert.KernelIdeal.Reg4

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem pay_apply (x0 x1 : Vec Ideal S5000x128 .f32) (j : S5000x128.Idx) :
    k4_pay1 x0 x1 j = max (x0 j + x1 j) 0 := by
  rw [k4_pay1, shapeCast_self, shapeCast_self]
  exact congrArg (max _) Ideal.ofBits_zero_f32

/-- At point `t` all three arrays are cut at the same block: block `t` of the rows, all the columns. -/
theorem idx : ∀ t : Fin cfg4.N, (∀ a : Fin 2, win4_0.index t a = win4_2.index t a ∧ win4_1.index t a = win4_2.index t a)
    ∧ win4_2.index t 0 = t.val ∧ win4_2.index t 1 = 0 :=
  (by decide +kernel : ∀ t : Fin grid4.N, _)

theorem flushed_eq (c : Dev nD) (t : Fin cfg4.N) :
    (dat4 V c).flushed 2 t
      = ((cfg4.win 2).blk t).view.read (Elt Ideal) (Cert.Spec.msgSpec (V c main_v34) (V c main_v1)) := by
  have z : (![0, 0] : Fin 2 → Nat) = fun _ => 0 := by decide
  unfold Dat.flushed
  rw [after4_2, out4_2, View.canon_unit_zero z, View.ld_unit_zero (S := S5000x128) z,
    View.ld_unit_zero (S := S5000x128) z]
  funext j
  have r0 : iblk4 V c 0 t j = V c main_v34 (((cfg4.win 2).blk t).view.emb j) :=
    congrArg (V c main_v34) (funext fun a => Fin.ext (congrArg (· * S5000x128.size a + 1 * (j a).val) ((idx t).1 a).1))
  have r1 : iblk4 V c 1 t j = V c main_v1 (((cfg4.win 2).blk t).view.emb j) :=
    congrArg (V c main_v1) (funext fun a => Fin.ext (congrArg (· * S5000x128.size a + 1 * (j a).val) ((idx t).1 a).2))
  show k4_pay1 _ _ j = _
  rw [pay_apply, r0, r1]
  rfl

/-- Row `r` lies in block `r / 5000`. -/
theorem cover (i : S500000x128.Idx) :
    ∃ t : Fin cfg4.N, (cfg4.win 2).flush t = true ∧ i ∈ ((cfg4.win 2).blk t).view.set := by
  have h0 := idx2_lt0 i
  have h1 := idx2_lt1 i
  obtain ⟨t, ht⟩ : ∃ t : Fin cfg4.N, t.val = (i 0).val / 5000 :=
    ⟨Fin.cast N_4.symm ⟨(i 0).val / 5000, by omega⟩, rfl⟩
  obtain ⟨-, q0, q1⟩ := idx t
  refine ⟨t, flush4_2 t, ?_⟩
  show i ∈ ((View.whole main_v35).slice (win4_2.rect t)).set
  rw [View.set_slice_whole, Rect.mem_set_unit]
  refine Fin.forall_fin_two.mpr ?_
  show (_ * 5000 ≤ _ ∧ _ < _ * 5000 + 5000) ∧ _ * 128 ≤ _ ∧ _ < _ * 128 + 128
  omega

theorem arr (c : Dev nD) : (dat4 V c).arrAt 2 cfg4.N = Cert.Spec.msgSpec (V c main_v34) (V c main_v1) :=
  (dat4 V c).arrAt_eq_of_cover 2 _ (fun t _ => flushed_eq V c t) cover

end Cert.KernelIdeal.Reg4

end
-- ==== Proof.Reg5.lean ====
import proofs.«416347_j65000035058412_3_alg».proof.Proof.Gen.KernelIdeal.Frame
import proofs.«416347_j65000035058412_3_alg».proof.Proof.Spec
import Idealize.ShloMosaic.Lib.Pipeline.Value

namespace Cert.KernelIdeal.Reg5

open Cert.KernelIdeal Cert.KernelIdeal.Gen
open Idealize.ShloMosaic Idealize.ShloMosaic.TcCoe Idealize.ShloMosaic.ValueIdx
open Idealize.ShloMosaic.Pipeline (Dat Window)

variable (V : (c : Dev nD) → (b : Ref sig .tc) → Buf (Elt Ideal) ((c : Thread nD τ).loc b))

-- The update at an entry reads only that entry's row of the two row arguments, so it commutes with taking a block of rows.
theorem upd_blk {N M : Nat} (H A : FVec Ideal ⟨2, ![M, 128]⟩ .f32) {W1 W2 : FVec Ideal ⟨2, ![128, 128]⟩ .f32}
    {b1 b2 g beta mean var : FVec Ideal ⟨2, ![1, 128]⟩ .f32} {e0 e1 e : (⟨2, ![N, 128]⟩ : Shape).Idx → (⟨2, ![M, 128]⟩ : Shape).Idx}
    {q0 q1 q s : Fin 2 → Nat} (h0 : ∀ y a, (e0 y a : Nat) = q0 a * s a + y a) (h1 : ∀ y a, (e1 y a : Nat) = q1 a * s a + y a)
    (h : ∀ y a, (e y a : Nat) = q a * s a + y a) (r0 : q = q0) (r1 : q = q1) (z : q 1 = 0) (i : (⟨2, ![N, 128]⟩ : Shape).Idx) :
    Cert.Spec.updSpec (fun y => H (e0 y)) (fun y => A (e1 y)) W1 b1 W2 b2 g beta mean var i
      = Cert.Spec.updSpec H A W1 b1 W2 b2 g beta mean var (e i) := by
  obtain rfl := r0
  obtain rfl := r1
  obtain rfl : e = e0 := funext fun y => funext fun a => Fin.ext ((h y a).trans (h0 y a).symm)
  obtain rfl : e = e1 := funext fun y => funext fun a => Fin.ext ((h y a).trans (h1 y a).symm)
  have c (y) : (e y 1 : Nat) = y 1 := by rw [h, z, Nat.zero_mul, Nat.zero_add]
  have k (j : Fin 128) : e (ix2 ⟨(i 0).val, idx2_lt0 i⟩ j) = ix2 ⟨(e i 0).val, idx2_lt0 _⟩ j :=
    funext (Fin.forall_fin_two.2 ⟨Fin.ext ((h _ 0).trans (h i 0).symm), Fin.ext (c _)⟩)
  have d : (⟨(e i 1).val, idx2_lt1 _⟩ : Fin 128) = ⟨(i 1).val, idx2_lt1 i⟩ := Fin.ext (c i)
  unfold Cert.Spec.updSpec Cert.Spec.hid
  simp only [d, k]

theorem row_idx : ∀ t : Fin cfg5.N, ∀ a, win5_10.index t a = win5_0.index t a ∧ win5_10.index t a = win5_1.index t a
    ∧ win5_10.index t a = ![t.val, 0] a := by
  decide +kernel

theorem zero_idx : ∀ (t : Fin cfg5.N) (w : Fin 11), 2 ≤ w.val → w.val ≤ 9 → ∀ a, (cfg5.win w).index t a = 0 := by
  decide +kernel

-- A block as large as its array, at block index zero, is the array.
theorem whole (c : Dev nD) (t : Fin cfg5.N) :
    iblk5 V c 2 t = V c main_v40 ∧ iblk5 V c 3 t = V c main_v55 ∧ iblk5 V c 4 t = V c main_v44 ∧ iblk5 V c 5 t = V c main_v56
    ∧ iblk5 V c 6 t = V c main_v57 ∧ iblk5 V c 7 t = V c main_v58 ∧ iblk5 V c 8 t = V c main_v59 ∧ iblk5 V c 9 t = V c main_v60 := by
  and_intros <;> exact funext fun y => congrArg _ (funext fun a => Fin.ext
    (Window.rect_emb_val_of_index_zero _ t a (zero_idx t _ (by decide) (by decide) a) y))

-- Row r lies in the block of rows numbered r / 5000.
theorem cover (i : S50000x128.Idx) :
    ∃ t : Fin cfg5.N, (cfg5.win 10).flush t = true ∧ i ∈ ((cfg5.win 10).blk t).view.set := by
  have hi0 : (i 0).val < 50000 := (i 0).isLt
  have hi1 : (i 1).val < 128 := (i 1).isLt
  obtain ⟨t, ht⟩ : ∃ t : Fin cfg5.N, t.val = (i 0).val / 5000 :=
    ⟨Fin.cast N_5.symm ⟨(i 0).val / 5000, by omega⟩, rfl⟩
  have q0 : win5_10.index t 0 = t.val := (row_idx t 0).2.2
  have q1 : win5_10.index t 1 = 0 := (row_idx t 1).2.2
  refine ⟨t, flush5_10 t, ?_⟩
  rw [show ((cfg5.win 10).blk t).view.set = (win5_10.rect t).set from View.set_slice_whole _ _, Rect.mem_set_unit]
  exact Fin.forall_fin_two.2 ⟨by show _ * 5000 ≤ _ ∧ _ < _ * 5000 + 5000; omega, by show _ * 128 ≤ _ ∧ _ < _ * 128 + 128; omega⟩

theorem arr (hout : ∀ (x0 x1 : Vec Ideal S5000x128 .f32) (x2 : Vec Ideal S128x128 .f32) (x3 : Vec Ideal S1x128 .f32)
      (x4 : Vec Ideal S128x128 .f32) (x5 x6 x7 x8 x9 : Vec Ideal S1x128 .f32),
      out5_10 x0 x1 x2 x3 x4 x5 x6 x7 x8 x9 = Cert.Spec.updSpec x0 x1 x2 x3 x4 x5 x6 x7 x8 x9) (c : Dev nD) :
      (dat5 V c).arrAt 10 cfg5.N
        = Cert.Spec.updSpec (V c main_v33) (V c main_v38) (V c main_v40) (V c main_v55) (V c main_v44)
          (V c main_v56) (V c main_v57) (V c main_v58) (V c main_v59) (V c main_v60) :=
  (dat5 V c).arrAt_eq_of_cover 10 _ (fun t _ => by
    obtain ⟨w2, w3, w4, w5, w6, w7, w8, w9⟩ := whole V c t
    rw [Dat.flushed, after5_10, hout, w2, w3, w4, w5, w6, w7, w8, w9]
    exact funext fun j => upd_blk (V c main_v33) (V c main_v38) (win5_0.rect_emb_val t)
      (win5_1.rect_emb_val t) (win5_10.rect_emb_val t) (funext fun a => (row_idx t a).1) (funext fun a => (row_idx t a).2.1)
      (row_idx t 1).2.2 j) cover

end Cert.KernelIdeal.Reg5
-- ==== Proof.Reg6.lean ====
import proofs.«416347_j65000035058412_3_alg».proof.Proof.Gen.KernelIdeal.Frame
import proofs.«416347_j65000035058412_3_alg».proof.Proof.Spec
import Idealize.ShloMosaic.Lib.Pipeline.Value

noncomputable section

namespace Cert.KernelIdeal.Reg6

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem pay_apply (x0 x1 : Vec Ideal S5000x128 .f32) (j : S5000x128.Idx) :
    k6_pay1 x0 x1 j = max (x0 j + x1 j) 0 := by
  rw [k6_pay1, shapeCast_self, shapeCast_self]
  exact congrArg (max _) Ideal.ofBits_zero_f32

/-- At point `t` all three arrays are cut at the same block: block `t` of the rows, all the columns. -/
theorem idx : ∀ t : Fin cfg6.N, (∀ a : Fin 2, win6_0.index t a = win6_2.index t a ∧ win6_1.index t a = win6_2.index t a)
    ∧ win6_2.index t 0 = t.val ∧ win6_2.index t 1 = 0 :=
  (by decide +kernel : ∀ t : Fin grid6.N, _)

theorem flushed_eq (c : Dev nD) (t : Fin cfg6.N) :
    (dat6 V c).flushed 2 t
      = ((cfg6.win 2).blk t).view.read (Elt Ideal) (Cert.Spec.msgSpec (V c main_v62) (V c main_v1)) := by
  have z : (![0, 0] : Fin 2 → Nat) = fun _ => 0 := by decide
  unfold Dat.flushed
  rw [after6_2, out6_2, View.canon_unit_zero z, View.ld_unit_zero (S := S5000x128) z,
    View.ld_unit_zero (S := S5000x128) z]
  funext j
  have r0 : iblk6 V c 0 t j = V c main_v62 (((cfg6.win 2).blk t).view.emb j) :=
    congrArg (V c main_v62) (funext fun a => Fin.ext (congrArg (· * S5000x128.size a + 1 * (j a).val) ((idx t).1 a).1))
  have r1 : iblk6 V c 1 t j = V c main_v1 (((cfg6.win 2).blk t).view.emb j) :=
    congrArg (V c main_v1) (funext fun a => Fin.ext (congrArg (· * S5000x128.size a + 1 * (j a).val) ((idx t).1 a).2))
  show k6_pay1 _ _ j = _
  rw [pay_apply, r0, r1]
  rfl

/-- Row `r` lies in block `r / 5000`. -/
theorem cover (i : S500000x128.Idx) :
    ∃ t : Fin cfg6.N, (cfg6.win 2).flush t = true ∧ i ∈ ((cfg6.win 2).blk t).view.set := by
  have h0 := idx2_lt0 i
  have h1 := idx2_lt1 i
  obtain ⟨t, ht⟩ : ∃ t : Fin cfg6.N, t.val = (i 0).val / 5000 :=
    ⟨Fin.cast N_6.symm ⟨(i 0).val / 5000, by omega⟩, rfl⟩
  obtain ⟨-, q0, q1⟩ := idx t
  refine ⟨t, flush6_2 t, ?_⟩
  show i ∈ ((View.whole main_v63).slice (win6_2.rect t)).set
  rw [View.set_slice_whole, Rect.mem_set_unit]
  refine Fin.forall_fin_two.mpr ?_
  show (_ * 5000 ≤ _ ∧ _ < _ * 5000 + 5000) ∧ _ * 128 ≤ _ ∧ _ < _ * 128 + 128
  omega

theorem arr (c : Dev nD) : (dat6 V c).arrAt 2 cfg6.N = Cert.Spec.msgSpec (V c main_v62) (V c main_v1) :=
  (dat6 V c).arrAt_eq_of_cover 2 _ (fun t _ => flushed_eq V c t) cover

end Cert.KernelIdeal.Reg6

end
-- ==== Proof.Reg7.lean ====
import proofs.«416347_j65000035058412_3_alg».proof.Proof.Gen.KernelIdeal.Frame
import proofs.«416347_j65000035058412_3_alg».proof.Proof.Spec
import Idealize.ShloMosaic.Lib.Pipeline.Value

namespace Cert.KernelIdeal.Reg7

open Cert.KernelIdeal Cert.KernelIdeal.Gen
open Idealize.ShloMosaic Idealize.ShloMosaic.TcCoe Idealize.ShloMosaic.ValueIdx
open Idealize.ShloMosaic.Pipeline (Dat Window)

variable (V : (c : Dev nD) → (b : Ref sig .tc) → Buf (Elt Ideal) ((c : Thread nD τ).loc b))

-- The update at an entry reads only that entry's row of the two row arguments, so it commutes with taking a block of rows.
theorem upd_blk {N M : Nat} (H A : FVec Ideal ⟨2, ![M, 128]⟩ .f32) {W1 W2 : FVec Ideal ⟨2, ![128, 128]⟩ .f32}
    {b1 b2 g beta mean var : FVec Ideal ⟨2, ![1, 128]⟩ .f32} {e0 e1 e : (⟨2, ![N, 128]⟩ : Shape).Idx → (⟨2, ![M, 128]⟩ : Shape).Idx}
    {q0 q1 q s : Fin 2 → Nat} (h0 : ∀ y a, (e0 y a : Nat) = q0 a * s a + y a) (h1 : ∀ y a, (e1 y a : Nat) = q1 a * s a + y a)
    (h : ∀ y a, (e y a : Nat) = q a * s a + y a) (r0 : q = q0) (r1 : q = q1) (z : q 1 = 0) (i : (⟨2, ![N, 128]⟩ : Shape).Idx) :
    Cert.Spec.updSpec (fun y => H (e0 y)) (fun y => A (e1 y)) W1 b1 W2 b2 g beta mean var i
      = Cert.Spec.updSpec H A W1 b1 W2 b2 g beta mean var (e i) := by
  obtain rfl := r0
  obtain rfl := r1
  obtain rfl : e = e0 := funext fun y => funext fun a => Fin.ext ((h y a).trans (h0 y a).symm)
  obtain rfl : e = e1 := funext fun y => funext fun a => Fin.ext ((h y a).trans (h1 y a).symm)
  have c (y) : (e y 1 : Nat) = y 1 := by rw [h, z, Nat.zero_mul, Nat.zero_add]
  have k (j : Fin 128) : e (ix2 ⟨(i 0).val, idx2_lt0 i⟩ j) = ix2 ⟨(e i 0).val, idx2_lt0 _⟩ j :=
    funext (Fin.forall_fin_two.2 ⟨Fin.ext ((h _ 0).trans (h i 0).symm), Fin.ext (c _)⟩)
  have d : (⟨(e i 1).val, idx2_lt1 _⟩ : Fin 128) = ⟨(i 1).val, idx2_lt1 i⟩ := Fin.ext (c i)
  unfold Cert.Spec.updSpec Cert.Spec.hid
  simp only [d, k]

theorem row_idx : ∀ t : Fin cfg7.N, ∀ a, win7_10.index t a = win7_0.index t a ∧ win7_10.index t a = win7_1.index t a
    ∧ win7_10.index t a = ![t.val, 0] a := by
  decide +kernel

theorem zero_idx : ∀ (t : Fin cfg7.N) (w : Fin 11), 2 ≤ w.val → w.val ≤ 9 → ∀ a, (cfg7.win w).index t a = 0 := by
  decide +kernel

-- A block as large as its array, at block index zero, is the array.
theorem whole (c : Dev nD) (t : Fin cfg7.N) :
    iblk7 V c 2 t = V c main_v68 ∧ iblk7 V c 3 t = V c main_v83 ∧ iblk7 V c 4 t = V c main_v72 ∧ iblk7 V c 5 t = V c main_v84
    ∧ iblk7 V c 6 t = V c main_v85 ∧ iblk7 V c 7 t = V c main_v86 ∧ iblk7 V c 8 t = V c main_v87 ∧ iblk7 V c 9 t = V c main_v88 := by
  and_intros <;> exact funext fun y => congrArg _ (funext fun a => Fin.ext
    (Window.rect_emb_val_of_index_zero _ t a (zero_idx t _ (by decide) (by decide) a) y))

-- Row r lies in the block of rows numbered r / 5000.
theorem cover (i : S50000x128.Idx) :
    ∃ t : Fin cfg7.N, (cfg7.win 10).flush t = true ∧ i ∈ ((cfg7.win 10).blk t).view.set := by
  have hi0 : (i 0).val < 50000 := (i 0).isLt
  have hi1 : (i 1).val < 128 := (i 1).isLt
  obtain ⟨t, ht⟩ : ∃ t : Fin cfg7.N, t.val = (i 0).val / 5000 :=
    ⟨Fin.cast N_7.symm ⟨(i 0).val / 5000, by omega⟩, rfl⟩
  have q0 : win7_10.index t 0 = t.val := (row_idx t 0).2.2
  have q1 : win7_10.index t 1 = 0 := (row_idx t 1).2.2
  refine ⟨t, flush7_10 t, ?_⟩
  rw [show ((cfg7.win 10).blk t).view.set = (win7_10.rect t).set from View.set_slice_whole _ _, Rect.mem_set_unit]
  exact Fin.forall_fin_two.2 ⟨by show _ * 5000 ≤ _ ∧ _ < _ * 5000 + 5000; omega, by show _ * 128 ≤ _ ∧ _ < _ * 128 + 128; omega⟩

theorem arr (hout : ∀ (x0 x1 : Vec Ideal S5000x128 .f32) (x2 : Vec Ideal S128x128 .f32) (x3 : Vec Ideal S1x128 .f32)
      (x4 : Vec Ideal S128x128 .f32) (x5 x6 x7 x8 x9 : Vec Ideal S1x128 .f32),
      out7_10 x0 x1 x2 x3 x4 x5 x6 x7 x8 x9 = Cert.Spec.updSpec x0 x1 x2 x3 x4 x5 x6 x7 x8 x9) (c : Dev nD) :
      (dat7 V c).arrAt 10 cfg7.N
        = Cert.Spec.updSpec (V c main_v61) (V c main_v66) (V c main_v68) (V c main_v83) (V c main_v72)
          (V c main_v84) (V c main_v85) (V c main_v86) (V c main_v87) (V c main_v88) :=
  (dat7 V c).arrAt_eq_of_cover 10 _ (fun t _ => by
    obtain ⟨w2, w3, w4, w5, w6, w7, w8, w9⟩ := whole V c t
    rw [Dat.flushed, after7_10, hout, w2, w3, w4, w5, w6, w7, w8, w9]
    exact funext fun j => upd_blk (V c main_v61) (V c main_v66) (win7_0.rect_emb_val t)
      (win7_1.rect_emb_val t) (win7_10.rect_emb_val t) (funext fun a => (row_idx t a).1) (funext fun a => (row_idx t a).2.1)
      (row_idx t 1).2.2 j) cover

end Cert.KernelIdeal.Reg7
-- ==== Proof.Reg8.lean ====
import proofs.«416347_j65000035058412_3_alg».proof.Proof.Gen.KernelIdeal.Frame
import proofs.«416347_j65000035058412_3_alg».proof.Proof.Spec
import Idealize.ShloMosaic.Lib.Pipeline.Value

noncomputable section

namespace Cert.KernelIdeal.Reg8

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem pay_apply (x0 x1 : Vec Ideal S5000x128 .f32) (j : S5000x128.Idx) :
    k8_pay1 x0 x1 j = max (x0 j + x1 j) 0 := by
  rw [k8_pay1, shapeCast_self, shapeCast_self]
  exact congrArg (max _) Ideal.ofBits_zero_f32

/-- At point `t` all three arrays are cut at the same block: block `t` of the rows, all the columns. -/
theorem idx : ∀ t : Fin cfg8.N, (∀ a : Fin 2, win8_0.index t a = win8_2.index t a ∧ win8_1.index t a = win8_2.index t a)
    ∧ win8_2.index t 0 = t.val ∧ win8_2.index t 1 = 0 :=
  (by decide +kernel : ∀ t : Fin grid8.N, _)

theorem flushed_eq (c : Dev nD) (t : Fin cfg8.N) :
    (dat8 V c).flushed 2 t
      = ((cfg8.win 2).blk t).view.read (Elt Ideal) (Cert.Spec.msgSpec (V c main_v90) (V c main_v1)) := by
  have z : (![0, 0] : Fin 2 → Nat) = fun _ => 0 := by decide
  unfold Dat.flushed
  rw [after8_2, out8_2, View.canon_unit_zero z, View.ld_unit_zero (S := S5000x128) z,
    View.ld_unit_zero (S := S5000x128) z]
  funext j
  have r0 : iblk8 V c 0 t j = V c main_v90 (((cfg8.win 2).blk t).view.emb j) :=
    congrArg (V c main_v90) (funext fun a => Fin.ext (congrArg (· * S5000x128.size a + 1 * (j a).val) ((idx t).1 a).1))
  have r1 : iblk8 V c 1 t j = V c main_v1 (((cfg8.win 2).blk t).view.emb j) :=
    congrArg (V c main_v1) (funext fun a => Fin.ext (congrArg (· * S5000x128.size a + 1 * (j a).val) ((idx t).1 a).2))
  show k8_pay1 _ _ j = _
  rw [pay_apply, r0, r1]
  rfl

/-- Row `r` lies in block `r / 5000`. -/
theorem cover (i : S500000x128.Idx) :
    ∃ t : Fin cfg8.N, (cfg8.win 2).flush t = true ∧ i ∈ ((cfg8.win 2).blk t).view.set := by
  have h0 := idx2_lt0 i
  have h1 := idx2_lt1 i
  obtain ⟨t, ht⟩ : ∃ t : Fin cfg8.N, t.val = (i 0).val / 5000 :=
    ⟨Fin.cast N_8.symm ⟨(i 0).val / 5000, by omega⟩, rfl⟩
  obtain ⟨-, q0, q1⟩ := idx t
  refine ⟨t, flush8_2 t, ?_⟩
  show i ∈ ((View.whole main_v91).slice (win8_2.rect t)).set
  rw [View.set_slice_whole, Rect.mem_set_unit]
  refine Fin.forall_fin_two.mpr ?_
  show (_ * 5000 ≤ _ ∧ _ < _ * 5000 + 5000) ∧ _ * 128 ≤ _ ∧ _ < _ * 128 + 128
  omega

theorem arr (c : Dev nD) : (dat8 V c).arrAt 2 cfg8.N = Cert.Spec.msgSpec (V c main_v90) (V c main_v1) :=
  (dat8 V c).arrAt_eq_of_cover 2 _ (fun t _ => flushed_eq V c t) cover

end Cert.KernelIdeal.Reg8

end
-- ==== Proof.Reg9.lean ====
import proofs.«416347_j65000035058412_3_alg».proof.Proof.Gen.KernelIdeal.Frame
import proofs.«416347_j65000035058412_3_alg».proof.Proof.Spec
import Idealize.ShloMosaic.Lib.Pipeline.Value

namespace Cert.KernelIdeal.Reg9

open Cert.KernelIdeal Cert.KernelIdeal.Gen
open Idealize.ShloMosaic Idealize.ShloMosaic.TcCoe Idealize.ShloMosaic.ValueIdx
open Idealize.ShloMosaic.Pipeline (Dat Window)

variable (V : (c : Dev nD) → (b : Ref sig .tc) → Buf (Elt Ideal) ((c : Thread nD τ).loc b))

-- The update at an entry reads only that entry's row of the two row arguments, so it commutes with taking a block of rows.
theorem upd_blk {N M : Nat} (H A : FVec Ideal ⟨2, ![M, 128]⟩ .f32) {W1 W2 : FVec Ideal ⟨2, ![128, 128]⟩ .f32}
    {b1 b2 g beta mean var : FVec Ideal ⟨2, ![1, 128]⟩ .f32} {e0 e1 e : (⟨2, ![N, 128]⟩ : Shape).Idx → (⟨2, ![M, 128]⟩ : Shape).Idx}
    {q0 q1 q s : Fin 2 → Nat} (h0 : ∀ y a, (e0 y a : Nat) = q0 a * s a + y a) (h1 : ∀ y a, (e1 y a : Nat) = q1 a * s a + y a)
    (h : ∀ y a, (e y a : Nat) = q a * s a + y a) (r0 : q = q0) (r1 : q = q1) (z : q 1 = 0) (i : (⟨2, ![N, 128]⟩ : Shape).Idx) :
    Cert.Spec.updSpec (fun y => H (e0 y)) (fun y => A (e1 y)) W1 b1 W2 b2 g beta mean var i
      = Cert.Spec.updSpec H A W1 b1 W2 b2 g beta mean var (e i) := by
  obtain rfl := r0
  obtain rfl := r1
  obtain rfl : e = e0 := funext fun y => funext fun a => Fin.ext ((h y a).trans (h0 y a).symm)
  obtain rfl : e = e1 := funext fun y => funext fun a => Fin.ext ((h y a).trans (h1 y a).symm)
  have c (y) : (e y 1 : Nat) = y 1 := by rw [h, z, Nat.zero_mul, Nat.zero_add]
  have k (j : Fin 128) : e (ix2 ⟨(i 0).val, idx2_lt0 i⟩ j) = ix2 ⟨(e i 0).val, idx2_lt0 _⟩ j :=
    funext (Fin.forall_fin_two.2 ⟨Fin.ext ((h _ 0).trans (h i 0).symm), Fin.ext (c _)⟩)
  have d : (⟨(e i 1).val, idx2_lt1 _⟩ : Fin 128) = ⟨(i 1).val, idx2_lt1 i⟩ := Fin.ext (c i)
  unfold Cert.Spec.updSpec Cert.Spec.hid
  simp only [d, k]

theorem row_idx : ∀ t : Fin cfg9.N, ∀ a, win9_10.index t a = win9_0.index t a ∧ win9_10.index t a = win9_1.index t a
    ∧ win9_10.index t a = ![t.val, 0] a := by
  decide +kernel

theorem zero_idx : ∀ (t : Fin cfg9.N) (w : Fin 11), 2 ≤ w.val → w.val ≤ 9 → ∀ a, (cfg9.win w).index t a = 0 := by
  decide +kernel

-- A block as large as its array, at block index zero, is the array.
theorem whole (c : Dev nD) (t : Fin cfg9.N) :
    iblk9 V c 2 t = V c main_v96 ∧ iblk9 V c 3 t = V c main_v111 ∧ iblk9 V c 4 t = V c main_v100 ∧ iblk9 V c 5 t = V c main_v112
    ∧ iblk9 V c 6 t = V c main_v113 ∧ iblk9 V c 7 t = V c main_v114 ∧ iblk9 V c 8 t = V c main_v115 ∧ iblk9 V c 9 t = V c main_v116 := by
  and_intros <;> exact funext fun y => congrArg _ (funext fun a => Fin.ext
    (Window.rect_emb_val_of_index_zero _ t a (zero_idx t _ (by decide) (by decide) a) y))

-- Row r lies in the block of rows numbered r / 5000.
theorem cover (i : S50000x128.Idx) :
    ∃ t : Fin cfg9.N, (cfg9.win 10).flush t = true ∧ i ∈ ((cfg9.win 10).blk t).view.set := by
  have hi0 : (i 0).val < 50000 := (i 0).isLt
  have hi1 : (i 1).val < 128 := (i 1).isLt
  obtain ⟨t, ht⟩ : ∃ t : Fin cfg9.N, t.val = (i 0).val / 5000 :=
    ⟨Fin.cast N_9.symm ⟨(i 0).val / 5000, by omega⟩, rfl⟩
  have q0 : win9_10.index t 0 = t.val := (row_idx t 0).2.2
  have q1 : win9_10.index t 1 = 0 := (row_idx t 1).2.2
  refine ⟨t, flush9_10 t, ?_⟩
  rw [show ((cfg9.win 10).blk t).view.set = (win9_10.rect t).set from View.set_slice_whole _ _, Rect.mem_set_unit]
  exact Fin.forall_fin_two.2 ⟨by show _ * 5000 ≤ _ ∧ _ < _ * 5000 + 5000; omega, by show _ * 128 ≤ _ ∧ _ < _ * 128 + 128; omega⟩

theorem arr (hout : ∀ (x0 x1 : Vec Ideal S5000x128 .f32) (x2 : Vec Ideal S128x128 .f32) (x3 : Vec Ideal S1x128 .f32)
      (x4 : Vec Ideal S128x128 .f32) (x5 x6 x7 x8 x9 : Vec Ideal S1x128 .f32),
      out9_10 x0 x1 x2 x3 x4 x5 x6 x7 x8 x9 = Cert.Spec.updSpec x0 x1 x2 x3 x4 x5 x6 x7 x8 x9) (c : Dev nD) :
      (dat9 V c).arrAt 10 cfg9.N
        = Cert.Spec.updSpec (V c main_v89) (V c main_v94) (V c main_v96) (V c main_v111) (V c main_v100)
          (V c main_v112) (V c main_v113) (V c main_v114) (V c main_v115) (V c main_v116) :=
  (dat9 V c).arrAt_eq_of_cover 10 _ (fun t _ => by
    obtain ⟨w2, w3, w4, w5, w6, w7, w8, w9⟩ := whole V c t
    rw [Dat.flushed, after9_10, hout, w2, w3, w4, w5, w6, w7, w8, w9]
    exact funext fun j => upd_blk (V c main_v89) (V c main_v94) (win9_0.rect_emb_val t)
      (win9_1.rect_emb_val t) (win9_10.rect_emb_val t) (funext fun a => (row_idx t a).1) (funext fun a => (row_idx t a).2.1)
      (row_idx t 1).2.2 j) cover

end Cert.KernelIdeal.Reg9
-- ==== Proof.KHostA.lean ====
import proofs.«416347_j65000035058412_3_alg».proof.Proof.Gen.KernelIdeal.Frame
import Idealize.ShloMosaic.Lib.StableHlo.Run
import Idealize.ShloMosaic.PureOps.Ideal
import Idealize.ShloMosaic.Lib.ValueIdx
import Idealize.ShloMosaic.Lib.Affine

noncomputable section

namespace Cert.KernelIdeal.KHostA

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

def wrap (s : IVec S500000 32) : IVec S500000 32 :=
  select (cmpi .slt s (broadcastInDim S500000 ![] bcast_S_S500000 (constantI S_ 32 0#32)))
    (addi s (broadcastInDim S500000 ![] bcast_S_S500000 (constantI S_ 32 50000#32))) s

def idx (s : IVec S500000 32) : IVec S500000x1 32 :=
  broadcastInDim S500000x1 ![0] bcast_S500000_S500000x1_0 (wrap s)

def inRange (s : IVec S500000 32) : IVec S500000 1 :=
  Host.reduce IntOp.andi
    (andi (cmpi .sge (idx s) (broadcastInDim S500000x1 ![] bcast_S_S500000x1 (constantI S_ 32 0#32)))
      (cmpi .sle (idx s) (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

def takeFill (h : FVec Ideal S50000x128 .f32) (s : IVec S500000 32) : FVec Ideal S500000x128 .f32 :=
  select (broadcastInDim S500000x128 ![0] bcast_S500000_S500000x128_0 (inRange s))
    (Host.gather gather_S50000x128_S500000x1_S500000x128_1_0_n_n_0_1_1128 h (idx s))
    (broadcastInDim S500000x128 ![] bcast_S_S500000x128 (constant (F := Ideal) S_ .f32 0x7FC00000#32))

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

theorem bcast_ones {s t : Shape} {dims : Fin s.rank → Fin t.rank} (h : s.BroadcastsInDim t dims) (x : IVec s 1)
    (hx : ∀ k, x k = 1#1) (j : t.Idx) : broadcastInDim t dims h x j = 1#1 := hx _

section InRange

variable (s : IVec S500000 32) (hs : ∀ i, 0 ≤ (s i).toInt ∧ (s i).toInt < 50000)

include hs

theorem wrap_apply (i : S500000.Idx) : wrap s i = s i := by
  show Scalar.select (IntOp.cmpi .slt (s i) 0#32) (IntOp.addi (s i) 50000#32) (s i) = s i
  refine if_neg fun h => ?_
  have h1 := IntOp.cmpi_slt.mp h
  have h0 : (0#32 : BitVec 32).toInt = 0 := by decide
  have h2 := (hs i).1
  omega

theorem idx_range (j : S500000x1.Idx) : 0 ≤ (idx s j).toInt ∧ (idx s j).toInt < 50000 := by
  obtain ⟨k, hk⟩ : ∃ k, idx s j = wrap s k := ⟨_, rfl⟩
  rw [hk, wrap_apply s hs k]
  exact hs k

theorem inRange_apply (i : S500000.Idx) : inRange s i = 1#1 := by
  refine reduce_andi_one _ _ _ _ (fun j => ?_) (fun _ => rfl) i
  show IntOp.andi (IntOp.cmpi .sge (idx s j) 0#32) (IntOp.cmpi .sle (idx s j) 49999#32) = 1#1
  have hr := idx_range s hs j
  have h0 : (0#32 : BitVec 32).toInt = 0 := by decide
  have h1 : (49999#32 : BitVec 32).toInt = 49999 := by decide
  rw [IntOp.andi_eq_one, IntOp.cmpi_sge, IntOp.cmpi_sle]
  omega

theorem takeFill_eq (h : FVec Ideal S50000x128 .f32) :
    takeFill h s = Host.gather gather_S50000x128_S500000x1_S500000x128_1_0_n_n_0_1_1128 h (idx s) := by
  funext i
  unfold takeFill
  rw [ValueIdx.select_apply, bcast_ones _ _ (inRange_apply s hs)]
  exact ValueIdx.select_one _ _

end InRange

theorem src (c : Dev nD) : W3 m ρ c (Proc.devRef .tc main_v3)
    = shapeCast S500000 (extractStridedSlice S1x500000 ![0, 0] (W2 m ρ c (Proc.devRef .tc main_arg1)) slices_S2x500000_S1x500000_0_0)
        shapeCasts_S1x500000_S500000 := by
  show StableHlo.after hostOps2 (W2 m ρ c) (Proc.devRef .tc main_v3) = _
  after_results
  rfl

theorem dst (c : Dev nD) : W3 m ρ c (Proc.devRef .tc main_v5)
    = shapeCast S500000 (extractStridedSlice S1x500000 ![1, 0] (W2 m ρ c (Proc.devRef .tc main_arg1)) slices_S2x500000_S1x500000_1_0)
        shapeCasts_S1x500000_S500000 := by
  show StableHlo.after hostOps2 (W2 m ρ c) (Proc.devRef .tc main_v5) = _
  after_results
  rfl

theorem take0_after (V : Valuation τ sig (Elt Ideal)) :
    StableHlo.after hostOps2_1 V (Proc.devRef .tc main_v6)
      = takeFill (V (Proc.devRef .tc main_v0)) (V (Proc.devRef .tc main_v3)) := by
  after_results_simp
  dsimp only [TRef.ofBuf, TRef.toBuf, cast_eq]
  rfl

theorem take1_after (V : Valuation τ sig (Elt Ideal)) :
    StableHlo.after hostOps4 V (Proc.devRef .tc main_v34)
      = takeFill (V (Proc.devRef .tc main_v33)) (V (Proc.devRef .tc main_v3)) := by
  after_results_simp
  dsimp only [TRef.ofBuf, TRef.toBuf, cast_eq]
  rfl

theorem take2_after (V : Valuation τ sig (Elt Ideal)) :
    StableHlo.after hostOps6 V (Proc.devRef .tc main_v62)
      = takeFill (V (Proc.devRef .tc main_v61)) (V (Proc.devRef .tc main_v3)) := by
  after_results_simp
  dsimp only [TRef.ofBuf, TRef.toBuf, cast_eq]
  rfl

theorem take3_after (V : Valuation τ sig (Elt Ideal)) :
    StableHlo.after hostOps8 V (Proc.devRef .tc main_v90)
      = takeFill (V (Proc.devRef .tc main_v89)) (V (Proc.devRef .tc main_v3)) := by
  after_results_simp
  dsimp only [TRef.ofBuf, TRef.toBuf, cast_eq]
  rfl

theorem take0 (c : Dev nD)
    (hs : ∀ i, 0 ≤ (W3 m ρ c (Proc.devRef .tc main_v3) i).toInt ∧ (W3 m ρ c (Proc.devRef .tc main_v3) i).toInt < 50000) :
    W4 m ρ c (Proc.devRef .tc main_v6)
      = Host.gather gather_S50000x128_S500000x1_S500000x128_1_0_n_n_0_1_1128 (W3 m ρ c (Proc.devRef .tc main_v0))
          (idx (W3 m ρ c (Proc.devRef .tc main_v3))) :=
  (take0_after (W3 m ρ c)).trans (takeFill_eq _ hs _)

theorem take1 (c : Dev nD)
    (hs : ∀ i, 0 ≤ (W7 m ρ c (Proc.devRef .tc main_v3) i).toInt ∧ (W7 m ρ c (Proc.devRef .tc main_v3) i).toInt < 50000) :
    W8 m ρ c (Proc.devRef .tc main_v34)
      = Host.gather gather_S50000x128_S500000x1_S500000x128_1_0_n_n_0_1_1128 (W7 m ρ c (Proc.devRef .tc main_v33))
          (idx (W7 m ρ c (Proc.devRef .tc main_v3))) :=
  (take1_after (W7 m ρ c)).trans (takeFill_eq _ hs _)

theorem take2 (c : Dev nD)
    (hs : ∀ i, 0 ≤ (W11 m ρ c (Proc.devRef .tc main_v3) i).toInt ∧ (W11 m ρ c (Proc.devRef .tc main_v3) i).toInt < 50000) :
    W12 m ρ c (Proc.devRef .tc main_v62)
      = Host.gather gather_S50000x128_S500000x1_S500000x128_1_0_n_n_0_1_1128 (W11 m ρ c (Proc.devRef .tc main_v61))
          (idx (W11 m ρ c (Proc.devRef .tc main_v3))) :=
  (take2_after (W11 m ρ c)).trans (takeFill_eq _ hs _)

theorem take3 (c : Dev nD)
    (hs : ∀ i, 0 ≤ (W15 m ρ c (Proc.devRef .tc main_v3) i).toInt ∧ (W15 m ρ c (Proc.devRef .tc main_v3) i).toInt < 50000) :
    W16 m ρ c (Proc.devRef .tc main_v90)
      = Host.gather gather_S50000x128_S500000x1_S500000x128_1_0_n_n_0_1_1128 (W15 m ρ c (Proc.devRef .tc main_v89))
          (idx (W15 m ρ c (Proc.devRef .tc main_v3))) :=
  (take3_after (W15 m ρ c)).trans (takeFill_eq _ hs _)

end Cert.KernelIdeal.KHostA

end
-- ==== Proof.KHostB.lean ====
import proofs.«416347_j65000035058412_3_alg».proof.Proof.Gen.KernelIdeal.Frame
import Idealize.ShloMosaic.Lib.StableHlo.Run
import Idealize.ShloMosaic.PureOps.Ideal

noncomputable section

namespace Cert.KernelIdeal.KHostB

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

def mat0 (a : FVec Ideal S4x128x128 .f32) : FVec Ideal S128x128 .f32 :=
  shapeCast S128x128 (extractStridedSlice S1x128x128 ![0, 0, 0] a slices_S4x128x128_S1x128x128_0_0_0) shapeCasts_S1x128x128_S128x128
def row0 (a : FVec Ideal S4x128 .f32) : FVec Ideal S1x128 .f32 :=
  shapeCast S1x128 (shapeCast S128 (extractStridedSlice S1x128 ![0, 0] a slices_S4x128_S1x128_0_0) shapeCasts_S1x128_S128) shapeCasts_S128_S1x128
def mat1 (a : FVec Ideal S4x128x128 .f32) : FVec Ideal S128x128 .f32 :=
  shapeCast S128x128 (extractStridedSlice S1x128x128 ![1, 0, 0] a slices_S4x128x128_S1x128x128_1_0_0) shapeCasts_S1x128x128_S128x128
def row1 (a : FVec Ideal S4x128 .f32) : FVec Ideal S1x128 .f32 :=
  shapeCast S1x128 (shapeCast S128 (extractStridedSlice S1x128 ![1, 0] a slices_S4x128_S1x128_1_0) shapeCasts_S1x128_S128) shapeCasts_S128_S1x128
def mat2 (a : FVec Ideal S4x128x128 .f32) : FVec Ideal S128x128 .f32 :=
  shapeCast S128x128 (extractStridedSlice S1x128x128 ![2, 0, 0] a slices_S4x128x128_S1x128x128_2_0_0) shapeCasts_S1x128x128_S128x128
def row2 (a : FVec Ideal S4x128 .f32) : FVec Ideal S1x128 .f32 :=
  shapeCast S1x128 (shapeCast S128 (extractStridedSlice S1x128 ![2, 0] a slices_S4x128_S1x128_2_0) shapeCasts_S1x128_S128) shapeCasts_S128_S1x128
def mat3 (a : FVec Ideal S4x128x128 .f32) : FVec Ideal S128x128 .f32 :=
  shapeCast S128x128 (extractStridedSlice S1x128x128 ![3, 0, 0] a slices_S4x128x128_S1x128x128_3_0_0) shapeCasts_S1x128x128_S128x128
def row3 (a : FVec Ideal S4x128 .f32) : FVec Ideal S1x128 .f32 :=
  shapeCast S1x128 (shapeCast S128 (extractStridedSlice S1x128 ![3, 0] a slices_S4x128_S1x128_3_0) shapeCasts_S1x128_S128) shapeCasts_S128_S1x128

theorem agg0 (c : Dev nD) : W6 m ρ c (Proc.devRef .tc main_v10) =
    Host.scatterAdd scatter_S50000x128_S500000x1_S500000x128_1_0_0_1
      (broadcastInDim S50000x128 ![] bcast_S_S50000x128 (constant (F := Ideal) S_ .f32 0x00000000#32))
      (broadcastInDim S500000x1 ![0] bcast_S500000_S500000x1_0 (W5 m ρ c (Proc.devRef .tc main_v5)))
      (W5 m ρ c (Proc.devRef .tc main_v7)) := by
  show StableHlo.after hostOps3 (W5 m ρ c) (Proc.devRef .tc main_v10) = _
  after_results

theorem w1_0 (c : Dev nD) : W6 m ρ c (Proc.devRef .tc main_v12) =
    mat0 (W5 m ρ c (Proc.devRef .tc main_arg6)) := by
  show StableHlo.after hostOps3 (W5 m ρ c) (Proc.devRef .tc main_v12) = _
  after_results; rfl

theorem w2_0 (c : Dev nD) : W6 m ρ c (Proc.devRef .tc main_v16) =
    mat0 (W5 m ρ c (Proc.devRef .tc main_arg8)) := by
  show StableHlo.after hostOps3 (W5 m ρ c) (Proc.devRef .tc main_v16) = _
  after_results; rfl

theorem b1_0 (c : Dev nD) : W6 m ρ c (Proc.devRef .tc main_v27) =
    row0 (W5 m ρ c (Proc.devRef .tc main_arg7)) := by
  show StableHlo.after hostOps3 (W5 m ρ c) (Proc.devRef .tc main_v27) = _
  after_results; rfl

theorem b2_0 (c : Dev nD) : W6 m ρ c (Proc.devRef .tc main_v28) =
    row0 (W5 m ρ c (Proc.devRef .tc main_arg9)) := by
  show StableHlo.after hostOps3 (W5 m ρ c) (Proc.devRef .tc main_v28) = _
  after_results; rfl

theorem g_0 (c : Dev nD) : W6 m ρ c (Proc.devRef .tc main_v29) =
    row0 (W5 m ρ c (Proc.devRef .tc main_arg10)) := by
  show StableHlo.after hostOps3 (W5 m ρ c) (Proc.devRef .tc main_v29) = _
  after_results; rfl

theorem be_0 (c : Dev nD) : W6 m ρ c (Proc.devRef .tc main_v30) =
    row0 (W5 m ρ c (Proc.devRef .tc main_arg11)) := by
  show StableHlo.after hostOps3 (W5 m ρ c) (Proc.devRef .tc main_v30) = _
  after_results; rfl

theorem mu_0 (c : Dev nD) : W6 m ρ c (Proc.devRef .tc main_v31) =
    row0 (W5 m ρ c (Proc.devRef .tc main_arg12)) := by
  show StableHlo.after hostOps3 (W5 m ρ c) (Proc.devRef .tc main_v31) = _
  after_results; rfl

theorem va_0 (c : Dev nD) : W6 m ρ c (Proc.devRef .tc main_v32) =
    row0 (W5 m ρ c (Proc.devRef .tc main_arg13)) := by
  show StableHlo.after hostOps3 (W5 m ρ c) (Proc.devRef .tc main_v32) = _
  after_results; rfl

theorem agg1 (c : Dev nD) : W10 m ρ c (Proc.devRef .tc main_v38) =
    Host.scatterAdd scatter_S50000x128_S500000x1_S500000x128_1_0_0_1
      (broadcastInDim S50000x128 ![] bcast_S_S50000x128 (constant (F := Ideal) S_ .f32 0x00000000#32))
      (broadcastInDim S500000x1 ![0] bcast_S500000_S500000x1_0 (W9 m ρ c (Proc.devRef .tc main_v5)))
      (W9 m ρ c (Proc.devRef .tc main_v35)) := by
  show StableHlo.after hostOps5 (W9 m ρ c) (Proc.devRef .tc main_v38) = _
  after_results

theorem w1_1 (c : Dev nD) : W10 m ρ c (Proc.devRef .tc main_v40) =
    mat1 (W9 m ρ c (Proc.devRef .tc main_arg6)) := by
  show StableHlo.after hostOps5 (W9 m ρ c) (Proc.devRef .tc main_v40) = _
  after_results; rfl

theorem w2_1 (c : Dev nD) : W10 m ρ c (Proc.devRef .tc main_v44) =
    mat1 (W9 m ρ c (Proc.devRef .tc main_arg8)) := by
  show StableHlo.after hostOps5 (W9 m ρ c) (Proc.devRef .tc main_v44) = _
  after_results; rfl

theorem b1_1 (c : Dev nD) : W10 m ρ c (Proc.devRef .tc main_v55) =
    row1 (W9 m ρ c (Proc.devRef .tc main_arg7)) := by
  show StableHlo.after hostOps5 (W9 m ρ c) (Proc.devRef .tc main_v55) = _
  after_results; rfl

theorem b2_1 (c : Dev nD) : W10 m ρ c (Proc.devRef .tc main_v56) =
    row1 (W9 m ρ c (Proc.devRef .tc main_arg9)) := by
  show StableHlo.after hostOps5 (W9 m ρ c) (Proc.devRef .tc main_v56) = _
  after_results; rfl

theorem g_1 (c : Dev nD) : W10 m ρ c (Proc.devRef .tc main_v57) =
    row1 (W9 m ρ c (Proc.devRef .tc main_arg10)) := by
  show StableHlo.after hostOps5 (W9 m ρ c) (Proc.devRef .tc main_v57) = _
  after_results; rfl

theorem be_1 (c : Dev nD) : W10 m ρ c (Proc.devRef .tc main_v58) =
    row1 (W9 m ρ c (Proc.devRef .tc main_arg11)) := by
  show StableHlo.after hostOps5 (W9 m ρ c) (Proc.devRef .tc main_v58) = _
  after_results; rfl

theorem mu_1 (c : Dev nD) : W10 m ρ c (Proc.devRef .tc main_v59) =
    row1 (W9 m ρ c (Proc.devRef .tc main_arg12)) := by
  show StableHlo.after hostOps5 (W9 m ρ c) (Proc.devRef .tc main_v59) = _
  after_results; rfl

theorem va_1 (c : Dev nD) : W10 m ρ c (Proc.devRef .tc main_v60) =
    row1 (W9 m ρ c (Proc.devRef .tc main_arg13)) := by
  show StableHlo.after hostOps5 (W9 m ρ c) (Proc.devRef .tc main_v60) = _
  after_results; rfl

theorem agg2 (c : Dev nD) : W14 m ρ c (Proc.devRef .tc main_v66) =
    Host.scatterAdd scatter_S50000x128_S500000x1_S500000x128_1_0_0_1
      (broadcastInDim S50000x128 ![] bcast_S_S50000x128 (constant (F := Ideal) S_ .f32 0x00000000#32))
      (broadcastInDim S500000x1 ![0] bcast_S500000_S500000x1_0 (W13 m ρ c (Proc.devRef .tc main_v5)))
      (W13 m ρ c (Proc.devRef .tc main_v63)) := by
  show StableHlo.after hostOps7 (W13 m ρ c) (Proc.devRef .tc main_v66) = _
  after_results

theorem w1_2 (c : Dev nD) : W14 m ρ c (Proc.devRef .tc main_v68) =
    mat2 (W13 m ρ c (Proc.devRef .tc main_arg6)) := by
  show StableHlo.after hostOps7 (W13 m ρ c) (Proc.devRef .tc main_v68) = _
  after_results; rfl

theorem w2_2 (c : Dev nD) : W14 m ρ c (Proc.devRef .tc main_v72) =
    mat2 (W13 m ρ c (Proc.devRef .tc main_arg8)) := by
  show StableHlo.after hostOps7 (W13 m ρ c) (Proc.devRef .tc main_v72) = _
  after_results; rfl

theorem b1_2 (c : Dev nD) : W14 m ρ c (Proc.devRef .tc main_v83) =
    row2 (W13 m ρ c (Proc.devRef .tc main_arg7)) := by
  show StableHlo.after hostOps7 (W13 m ρ c) (Proc.devRef .tc main_v83) = _
  after_results; rfl

theorem b2_2 (c : Dev nD) : W14 m ρ c (Proc.devRef .tc main_v84) =
    row2 (W13 m ρ c (Proc.devRef .tc main_arg9)) := by
  show StableHlo.after hostOps7 (W13 m ρ c) (Proc.devRef .tc main_v84) = _
  after_results; rfl

theorem g_2 (c : Dev nD) : W14 m ρ c (Proc.devRef .tc main_v85) =
    row2 (W13 m ρ c (Proc.devRef .tc main_arg10)) := by
  show StableHlo.after hostOps7 (W13 m ρ c) (Proc.devRef .tc main_v85) = _
  after_results; rfl

theorem be_2 (c : Dev nD) : W14 m ρ c (Proc.devRef .tc main_v86) =
    row2 (W13 m ρ c (Proc.devRef .tc main_arg11)) := by
  show StableHlo.after hostOps7 (W13 m ρ c) (Proc.devRef .tc main_v86) = _
  after_results; rfl

theorem mu_2 (c : Dev nD) : W14 m ρ c (Proc.devRef .tc main_v87) =
    row2 (W13 m ρ c (Proc.devRef .tc main_arg12)) := by
  show StableHlo.after hostOps7 (W13 m ρ c) (Proc.devRef .tc main_v87) = _
  after_results; rfl

theorem va_2 (c : Dev nD) : W14 m ρ c (Proc.devRef .tc main_v88) =
    row2 (W13 m ρ c (Proc.devRef .tc main_arg13)) := by
  show StableHlo.after hostOps7 (W13 m ρ c) (Proc.devRef .tc main_v88) = _
  after_results; rfl

theorem agg3 (c : Dev nD) : W18 m ρ c (Proc.devRef .tc main_v94) =
    Host.scatterAdd scatter_S50000x128_S500000x1_S500000x128_1_0_0_1
      (broadcastInDim S50000x128 ![] bcast_S_S50000x128 (constant (F := Ideal) S_ .f32 0x00000000#32))
      (broadcastInDim S500000x1 ![0] bcast_S500000_S500000x1_0 (W17 m ρ c (Proc.devRef .tc main_v5)))
      (W17 m ρ c (Proc.devRef .tc main_v91)) := by
  show StableHlo.after hostOps9 (W17 m ρ c) (Proc.devRef .tc main_v94) = _
  after_results

theorem w1_3 (c : Dev nD) : W18 m ρ c (Proc.devRef .tc main_v96) =
    mat3 (W17 m ρ c (Proc.devRef .tc main_arg6)) := by
  show StableHlo.after hostOps9 (W17 m ρ c) (Proc.devRef .tc main_v96) = _
  after_results; rfl

theorem w2_3 (c : Dev nD) : W18 m ρ c (Proc.devRef .tc main_v100) =
    mat3 (W17 m ρ c (Proc.devRef .tc main_arg8)) := by
  show StableHlo.after hostOps9 (W17 m ρ c) (Proc.devRef .tc main_v100) = _
  after_results; rfl

theorem b1_3 (c : Dev nD) : W18 m ρ c (Proc.devRef .tc main_v111) =
    row3 (W17 m ρ c (Proc.devRef .tc main_arg7)) := by
  show StableHlo.after hostOps9 (W17 m ρ c) (Proc.devRef .tc main_v111) = _
  after_results; rfl

theorem b2_3 (c : Dev nD) : W18 m ρ c (Proc.devRef .tc main_v112) =
    row3 (W17 m ρ c (Proc.devRef .tc main_arg9)) := by
  show StableHlo.after hostOps9 (W17 m ρ c) (Proc.devRef .tc main_v112) = _
  after_results; rfl

theorem g_3 (c : Dev nD) : W18 m ρ c (Proc.devRef .tc main_v113) =
    row3 (W17 m ρ c (Proc.devRef .tc main_arg10)) := by
  show StableHlo.after hostOps9 (W17 m ρ c) (Proc.devRef .tc main_v113) = _
  after_results; rfl

theorem be_3 (c : Dev nD) : W18 m ρ c (Proc.devRef .tc main_v114) =
    row3 (W17 m ρ c (Proc.devRef .tc main_arg11)) := by
  show StableHlo.after hostOps9 (W17 m ρ c) (Proc.devRef .tc main_v114) = _
  after_results; rfl

theorem mu_3 (c : Dev nD) : W18 m ρ c (Proc.devRef .tc main_v115) =
    row3 (W17 m ρ c (Proc.devRef .tc main_arg12)) := by
  show StableHlo.after hostOps9 (W17 m ρ c) (Proc.devRef .tc main_v115) = _
  after_results; rfl

theorem va_3 (c : Dev nD) : W18 m ρ c (Proc.devRef .tc main_v116) =
    row3 (W17 m ρ c (Proc.devRef .tc main_arg13)) := by
  show StableHlo.after hostOps9 (W17 m ρ c) (Proc.devRef .tc main_v116) = _
  after_results; rfl

end Cert.KernelIdeal.KHostB
-- ==== Proof.KHostC.lean ====
import proofs.«416347_j65000035058412_3_alg».proof.Proof.Gen.KernelIdeal.Frame
import Idealize.ShloMosaic.Lib.StableHlo.Run
import Idealize.ShloMosaic.PureOps.Ideal

noncomputable section

namespace Cert.KernelIdeal.KHostC

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

def tailOf (sd1 : ScatterDims S1000x128 S50000x1 S50000x128) (sd2 : ScatterDims S1000 S50000x1 S50000)
    (dd : DotDims S1000x128 S128x10 S1000x10)
    (h : FVec Ideal S50000x128 .f32) (batch : IVec S50000 32) (mw : FVec Ideal S128x10 .f32) (mb : FVec Ideal S10 .f32) :
    FVec Ideal S1000x10 .f32 :=
  addf
    (Host.dotGeneral dd none
      (Host.divf
        (Host.scatterAdd sd1
          (broadcastInDim S1000x128 ![] bcast_S_S1000x128 (constant (F := Ideal) S_ .f32 0x00000000#32))
          (broadcastInDim S50000x1 ![0] bcast_S50000_S50000x1_0 batch)
          h)
        (broadcastInDim S1000x128 ![0, 1] bcast_S1000x1_S1000x128_0_1
          (broadcastInDim S1000x1 ![0] bcast_S1000_S1000x1_0
            (maximumf
              (Host.scatterAdd sd2
                (broadcastInDim S1000 ![] bcast_S_S1000 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S1000 ![] bcast_S_S1000 (constant (F := Ideal) S_ .f32 0x3F800000#32))))))
      mw)
    (broadcastInDim S1000x10 ![0, 1] bcast_S1x10_S1000x10_0_1
      (broadcastInDim S1x10 ![1] bcast_S10_S1x10_1 mb))

def tail (h : FVec Ideal S50000x128 .f32) (batch : IVec S50000 32) (mw : FVec Ideal S128x10 .f32) (mb : FVec Ideal S10 .f32) :
    FVec Ideal S1000x10 .f32 :=
  addf
    (Host.dotGeneral dot_S1000x128_S128x10_S1000x10_1_0_0_1_n_n none
      (Host.divf
        (Host.scatterAdd scatter_S1000x128_S50000x1_S50000x128_1_0_0_1
          (broadcastInDim S1000x128 ![] bcast_S_S1000x128 (constant (F := Ideal) S_ .f32 0x00000000#32))
          (broadcastInDim S50000x1 ![0] bcast_S50000_S50000x1_0 batch)
          h)
        (broadcastInDim S1000x128 ![0, 1] bcast_S1000x1_S1000x128_0_1
          (broadcastInDim S1000x1 ![0] bcast_S1000_S1000x1_0
            (maximumf
              (Host.scatterAdd scatter_S1000_S50000x1_S50000_n_0_0_1
                (broadcastInDim S1000 ![] bcast_S_S1000 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S1000 ![] bcast_S_S1000 (constant (F := Ideal) S_ .f32 0x3F800000#32))))))
      mw)
    (broadcastInDim S1000x10 ![0, 1] bcast_S1x10_S1000x10_0_1
      (broadcastInDim S1x10 ![1] bcast_S10_S1x10_1 mb))

theorem tail_eq : tail = tailOf scatter_S1000x128_S50000x1_S50000x128_1_0_0_1 scatter_S1000_S50000x1_S50000_n_0_0_1
    dot_S1000x128_S128x10_S1000x10_1_0_0_1_n_n := rfl

theorem out (c : Dev nD) : W20 m ρ c (Proc.devRef .tc main_v133)
    = tail (W19 m ρ c (Proc.devRef .tc main_v117)) (W19 m ρ c (Proc.devRef .tc main_arg3))
        (W19 m ρ c (Proc.devRef .tc main_arg14)) (W19 m ρ c (Proc.devRef .tc main_arg15)) := by
  dsimp only [W20]
  after_results_simp
  rfl

end Cert.KernelIdeal.KHostC

end
-- ==== Proof.KChain.lean ====
import proofs.«416347_j65000035058412_3_alg».proof.Proof.Gen.KernelIdeal.Frame
import proofs.«416347_j65000035058412_3_alg».proof.Proof.Spec
import proofs.«416347_j65000035058412_3_alg».proof.Proof.Keep
import proofs.«416347_j65000035058412_3_alg».proof.Proof.Enc0Pay
import proofs.«416347_j65000035058412_3_alg».proof.Proof.Enc1Pay
import proofs.«416347_j65000035058412_3_alg».proof.Proof.Upd3Pay
import proofs.«416347_j65000035058412_3_alg».proof.Proof.Reg0
import proofs.«416347_j65000035058412_3_alg».proof.Proof.Reg1
import proofs.«416347_j65000035058412_3_alg».proof.Proof.Reg2
import proofs.«416347_j65000035058412_3_alg».proof.Proof.Reg3
import proofs.«416347_j65000035058412_3_alg».proof.Proof.Reg4
import proofs.«416347_j65000035058412_3_alg».proof.Proof.Reg5
import proofs.«416347_j65000035058412_3_alg».proof.Proof.Reg6
import proofs.«416347_j65000035058412_3_alg».proof.Proof.Reg7
import proofs.«416347_j65000035058412_3_alg».proof.Proof.Reg8
import proofs.«416347_j65000035058412_3_alg».proof.Proof.Reg9
import proofs.«416347_j65000035058412_3_alg».proof.Proof.KHostA
import proofs.«416347_j65000035058412_3_alg».proof.Proof.KHostB
import proofs.«416347_j65000035058412_3_alg».proof.Proof.KHostC

noncomputable section

namespace Cert.KernelIdeal.KChain

open Cert.KernelIdeal Cert.KernelIdeal.Gen Cert.KernelIdeal.Keep Cert.KernelIdeal.KHostB
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

abbrev src (c : Dev nD) : IVec S500000 32 := W3 m ρ c (Proc.devRef .tc main_v3)
abbrev dst (c : Dev nD) : IVec S500000 32 := W3 m ρ c (Proc.devRef .tc main_v5)

def h0 (c : Dev nD) : FVec Ideal S50000x128 .f32 := Cert.Spec.encSpec (by decide) (W0 m ρ c (Proc.devRef .tc main_arg0)) (W0 m ρ c (Proc.devRef .tc main_arg4))
def e (c : Dev nD) : FVec Ideal S500000x128 .f32 := Cert.Spec.encSpec (by decide) (W0 m ρ c (Proc.devRef .tc main_arg2)) (W0 m ρ c (Proc.devRef .tc main_arg5))

def agg (h : FVec Ideal S50000x128 .f32) (c : Dev nD) : FVec Ideal S50000x128 .f32 :=
  Host.scatterAdd scatter_S50000x128_S500000x1_S500000x128_1_0_0_1
    (broadcastInDim S50000x128 ![] bcast_S_S50000x128 (constant (F := Ideal) S_ .f32 0x00000000#32))
    (broadcastInDim S500000x1 ![0] bcast_S500000_S500000x1_0 (dst m ρ c))
    (Cert.Spec.msgSpec (Host.gather gather_S50000x128_S500000x1_S500000x128_1_0_n_n_0_1_1128 h (KHostA.idx (src m ρ c))) (e m ρ c))

def upd0 (h : FVec Ideal S50000x128 .f32) (c : Dev nD) : FVec Ideal S50000x128 .f32 :=
  Cert.Spec.updSpec h (agg m ρ h c) (mat0 (W0 m ρ c (Proc.devRef .tc main_arg6))) (row0 (W0 m ρ c (Proc.devRef .tc main_arg7))) (mat0 (W0 m ρ c (Proc.devRef .tc main_arg8))) (row0 (W0 m ρ c (Proc.devRef .tc main_arg9)))
    (row0 (W0 m ρ c (Proc.devRef .tc main_arg10))) (row0 (W0 m ρ c (Proc.devRef .tc main_arg11))) (row0 (W0 m ρ c (Proc.devRef .tc main_arg12))) (row0 (W0 m ρ c (Proc.devRef .tc main_arg13)))

def upd1 (h : FVec Ideal S50000x128 .f32) (c : Dev nD) : FVec Ideal S50000x128 .f32 :=
  Cert.Spec.updSpec h (agg m ρ h c) (mat1 (W0 m ρ c (Proc.devRef .tc main_arg6))) (row1 (W0 m ρ c (Proc.devRef .tc main_arg7))) (mat1 (W0 m ρ c (Proc.devRef .tc main_arg8))) (row1 (W0 m ρ c (Proc.devRef .tc main_arg9)))
    (row1 (W0 m ρ c (Proc.devRef .tc main_arg10))) (row1 (W0 m ρ c (Proc.devRef .tc main_arg11))) (row1 (W0 m ρ c (Proc.devRef .tc main_arg12))) (row1 (W0 m ρ c (Proc.devRef .tc main_arg13)))

def upd2 (h : FVec Ideal S50000x128 .f32) (c : Dev nD) : FVec Ideal S50000x128 .f32 :=
  Cert.Spec.updSpec h (agg m ρ h c) (mat2 (W0 m ρ c (Proc.devRef .tc main_arg6))) (row2 (W0 m ρ c (Proc.devRef .tc main_arg7))) (mat2 (W0 m ρ c (Proc.devRef .tc main_arg8))) (row2 (W0 m ρ c (Proc.devRef .tc main_arg9)))
    (row2 (W0 m ρ c (Proc.devRef .tc main_arg10))) (row2 (W0 m ρ c (Proc.devRef .tc main_arg11))) (row2 (W0 m ρ c (Proc.devRef .tc main_arg12))) (row2 (W0 m ρ c (Proc.devRef .tc main_arg13)))

def upd3 (h : FVec Ideal S50000x128 .f32) (c : Dev nD) : FVec Ideal S50000x128 .f32 :=
  Cert.Spec.updSpec h (agg m ρ h c) (mat3 (W0 m ρ c (Proc.devRef .tc main_arg6))) (row3 (W0 m ρ c (Proc.devRef .tc main_arg7))) (mat3 (W0 m ρ c (Proc.devRef .tc main_arg8))) (row3 (W0 m ρ c (Proc.devRef .tc main_arg9)))
    (row3 (W0 m ρ c (Proc.devRef .tc main_arg10))) (row3 (W0 m ρ c (Proc.devRef .tc main_arg11))) (row3 (W0 m ρ c (Proc.devRef .tc main_arg12))) (row3 (W0 m ρ c (Proc.devRef .tc main_arg13)))

def result (c : Dev nD) : FVec Ideal S1000x10 .f32 :=
  KHostC.tail (upd3 m ρ (upd2 m ρ (upd1 m ρ (upd0 m ρ (h0 m ρ c) c) c) c) c) (W0 m ρ c (Proc.devRef .tc main_arg3)) (W0 m ρ c (Proc.devRef .tc main_arg14)) (W0 m ρ c (Proc.devRef .tc main_arg15))

theorem enc_nodes (c : Dev nD) (hx : ∀ i, 0 ≤ (W0 m ρ c (Proc.devRef .tc main_arg0) i).toInt ∧ (W0 m ρ c (Proc.devRef .tc main_arg0) i).toInt < 120) :
    W1 m ρ c (Proc.devRef .tc main_v0) = h0 m ρ c :=
  (W1_arr m ρ c 2).trans (Reg0.arr (V0 m ρ) Enc0Pay.out0 c hx)

theorem enc_edges (c : Dev nD) (hx : ∀ i, 0 ≤ (W0 m ρ c (Proc.devRef .tc main_arg2) i).toInt ∧ (W0 m ρ c (Proc.devRef .tc main_arg2) i).toInt < 6) :
    W2 m ρ c (Proc.devRef .tc main_v1) = e m ρ c := by
  have h2 : W1 m ρ c (Proc.devRef .tc main_arg2) = W0 m ρ c (Proc.devRef .tc main_arg2) := w0_1 m ρ c main_arg2
  have h5 : W1 m ρ c (Proc.devRef .tc main_arg5) = W0 m ρ c (Proc.devRef .tc main_arg5) := w0_1 m ρ c main_arg5
  refine (W2_arr m ρ c 2).trans ((Reg1.arr (V1 m ρ) Enc1Pay.out1 c (fun i => ?_)).trans ?_)
  · show 0 ≤ (W1 m ρ c (Proc.devRef .tc main_arg2) i).toInt ∧ (W1 m ρ c (Proc.devRef .tc main_arg2) i).toInt < 6
    rw [h2]; exact hx i
  · show Cert.Spec.encSpec (by decide) (W1 m ρ c (Proc.devRef .tc main_arg2)) (W1 m ρ c (Proc.devRef .tc main_arg5)) = _
    rw [h2, h5]; rfl

theorem layer0 (c : Dev nD) (H : FVec Ideal S50000x128 .f32)
    (hs : ∀ i, 0 ≤ (src m ρ c i).toInt ∧ (src m ρ c i).toInt < 50000)
    (hv1 : W2 m ρ c (Proc.devRef .tc main_v1) = e m ρ c)
    (hh : W1 m ρ c (Proc.devRef .tc main_v0) = H) :
    W7 m ρ c (Proc.devRef .tc main_v33) = upd0 m ρ H c := by
  have hsrc : W3 m ρ c (Proc.devRef .tc main_v3) = src m ρ c := rfl
  have tk : W4 m ρ c (Proc.devRef .tc main_v6) = Host.gather gather_S50000x128_S500000x1_S500000x128_1_0_n_n_0_1_1128 H (KHostA.idx (src m ρ c)) := by
    rw [KHostA.take0 m ρ c (by rw [hsrc]; exact hs), hsrc, ((Cert.KernelIdeal.Keep.w1_3 m ρ c Cert.KernelIdeal.main_v0).trans hh)]

  have ms : W5 m ρ c (Proc.devRef .tc main_v7) = Cert.Spec.msgSpec (Host.gather gather_S50000x128_S500000x1_S500000x128_1_0_n_n_0_1_1128 H (KHostA.idx (src m ρ c))) (e m ρ c) :=
    (W5_arr m ρ c 2).trans ((Reg2.arr (V4 m ρ) c).trans (congrArg₂ Cert.Spec.msgSpec tk ((v1_4 m ρ c).trans hv1)))

  have ag : W6 m ρ c (Proc.devRef .tc main_v10) = agg m ρ H c := by
    rw [KHostB.agg0 m ρ c, w3_5 m ρ c main_v5, ms]; rfl

  have hin : W6 m ρ c (Proc.devRef .tc main_v0) = H := (Cert.KernelIdeal.Keep.w1_6 m ρ c Cert.KernelIdeal.main_v0).trans hh
  refine (W7_arr m ρ c 10).trans ((Reg3.arr (V6 m ρ) Upd3Pay.out3 c).trans ?_)
  show Cert.Spec.updSpec (W6 m ρ c (Proc.devRef .tc main_v0)) (W6 m ρ c (Proc.devRef .tc main_v10)) (W6 m ρ c (Proc.devRef .tc main_v12)) (W6 m ρ c (Proc.devRef .tc main_v27)) (W6 m ρ c (Proc.devRef .tc main_v16)) (W6 m ρ c (Proc.devRef .tc main_v28)) (W6 m ρ c (Proc.devRef .tc main_v29)) (W6 m ρ c (Proc.devRef .tc main_v30)) (W6 m ρ c (Proc.devRef .tc main_v31)) (W6 m ρ c (Proc.devRef .tc main_v32)) = _
  rw [hin, ag, KHostB.w1_0 m ρ c, KHostB.w2_0 m ρ c, KHostB.b1_0 m ρ c, KHostB.b2_0 m ρ c, KHostB.g_0 m ρ c, KHostB.be_0 m ρ c, KHostB.mu_0 m ρ c, KHostB.va_0 m ρ c,
    w0_5 m ρ c main_arg6, w0_5 m ρ c main_arg8, w0_5 m ρ c main_arg7, w0_5 m ρ c main_arg9, w0_5 m ρ c main_arg10, w0_5 m ρ c main_arg11, w0_5 m ρ c main_arg12, w0_5 m ρ c main_arg13]; rfl

theorem layer1 (c : Dev nD) (H : FVec Ideal S50000x128 .f32)
    (hs : ∀ i, 0 ≤ (src m ρ c i).toInt ∧ (src m ρ c i).toInt < 50000)
    (hv1 : W2 m ρ c (Proc.devRef .tc main_v1) = e m ρ c)
    (hh : W7 m ρ c (Proc.devRef .tc main_v33) = H) :
    W11 m ρ c (Proc.devRef .tc main_v61) = upd1 m ρ H c := by
  have hsrc : W7 m ρ c (Proc.devRef .tc main_v3) = src m ρ c := (w3_7 m ρ c main_v3)
  have tk : W8 m ρ c (Proc.devRef .tc main_v34) = Host.gather gather_S50000x128_S500000x1_S500000x128_1_0_n_n_0_1_1128 H (KHostA.idx (src m ρ c)) := by
    rw [KHostA.take1 m ρ c (by rw [hsrc]; exact hs), hsrc, hh]

  have ms : W9 m ρ c (Proc.devRef .tc main_v35) = Cert.Spec.msgSpec (Host.gather gather_S50000x128_S500000x1_S500000x128_1_0_n_n_0_1_1128 H (KHostA.idx (src m ρ c))) (e m ρ c) :=
    (W9_arr m ρ c 2).trans ((Reg4.arr (V8 m ρ) c).trans (congrArg₂ Cert.Spec.msgSpec tk ((v1_8 m ρ c).trans hv1)))

  have ag : W10 m ρ c (Proc.devRef .tc main_v38) = agg m ρ H c := by
    rw [KHostB.agg1 m ρ c, w3_9 m ρ c main_v5, ms]; rfl

  have hin : W10 m ρ c (Proc.devRef .tc main_v33) = H := (Cert.KernelIdeal.Keep.w7_10 m ρ c Cert.KernelIdeal.main_v33).trans hh
  refine (W11_arr m ρ c 10).trans ((Reg5.arr (V10 m ρ) Upd3Pay.out5 c).trans ?_)
  show Cert.Spec.updSpec (W10 m ρ c (Proc.devRef .tc main_v33)) (W10 m ρ c (Proc.devRef .tc main_v38)) (W10 m ρ c (Proc.devRef .tc main_v40)) (W10 m ρ c (Proc.devRef .tc main_v55)) (W10 m ρ c (Proc.devRef .tc main_v44)) (W10 m ρ c (Proc.devRef .tc main_v56)) (W10 m ρ c (Proc.devRef .tc main_v57)) (W10 m ρ c (Proc.devRef .tc main_v58)) (W10 m ρ c (Proc.devRef .tc main_v59)) (W10 m ρ c (Proc.devRef .tc main_v60)) = _
  rw [hin, ag, KHostB.w1_1 m ρ c, KHostB.w2_1 m ρ c, KHostB.b1_1 m ρ c, KHostB.b2_1 m ρ c, KHostB.g_1 m ρ c, KHostB.be_1 m ρ c, KHostB.mu_1 m ρ c, KHostB.va_1 m ρ c,
    w0_9 m ρ c main_arg6, w0_9 m ρ c main_arg8, w0_9 m ρ c main_arg7, w0_9 m ρ c main_arg9, w0_9 m ρ c main_arg10, w0_9 m ρ c main_arg11, w0_9 m ρ c main_arg12, w0_9 m ρ c main_arg13]; rfl

theorem layer2 (c : Dev nD) (H : FVec Ideal S50000x128 .f32)
    (hs : ∀ i, 0 ≤ (src m ρ c i).toInt ∧ (src m ρ c i).toInt < 50000)
    (hv1 : W2 m ρ c (Proc.devRef .tc main_v1) = e m ρ c)
    (hh : W11 m ρ c (Proc.devRef .tc main_v61) = H) :
    W15 m ρ c (Proc.devRef .tc main_v89) = upd2 m ρ H c := by
  have hsrc : W11 m ρ c (Proc.devRef .tc main_v3) = src m ρ c := (w3_11 m ρ c main_v3)
  have tk : W12 m ρ c (Proc.devRef .tc main_v62) = Host.gather gather_S50000x128_S500000x1_S500000x128_1_0_n_n_0_1_1128 H (KHostA.idx (src m ρ c)) := by
    rw [KHostA.take2 m ρ c (by rw [hsrc]; exact hs), hsrc, hh]

  have ms : W13 m ρ c (Proc.devRef .tc main_v63) = Cert.Spec.msgSpec (Host.gather gather_S50000x128_S500000x1_S500000x128_1_0_n_n_0_1_1128 H (KHostA.idx (src m ρ c))) (e m ρ c) :=
    (W13_arr m ρ c 2).trans ((Reg6.arr (V12 m ρ) c).trans (congrArg₂ Cert.Spec.msgSpec tk ((v1_12 m ρ c).trans hv1)))

  have ag : W14 m ρ c (Proc.devRef .tc main_v66) = agg m ρ H c := by
    rw [KHostB.agg2 m ρ c, w3_13 m ρ c main_v5, ms]; rfl

  have hin : W14 m ρ c (Proc.devRef .tc main_v61) = H := (Cert.KernelIdeal.Keep.w11_14 m ρ c Cert.KernelIdeal.main_v61).trans hh
  refine (W15_arr m ρ c 10).trans ((Reg7.arr (V14 m ρ) Upd3Pay.out7 c).trans ?_)
  show Cert.Spec.updSpec (W14 m ρ c (Proc.devRef .tc main_v61)) (W14 m ρ c (Proc.devRef .tc main_v66)) (W14 m ρ c (Proc.devRef .tc main_v68)) (W14 m ρ c (Proc.devRef .tc main_v83)) (W14 m ρ c (Proc.devRef .tc main_v72)) (W14 m ρ c (Proc.devRef .tc main_v84)) (W14 m ρ c (Proc.devRef .tc main_v85)) (W14 m ρ c (Proc.devRef .tc main_v86)) (W14 m ρ c (Proc.devRef .tc main_v87)) (W14 m ρ c (Proc.devRef .tc main_v88)) = _
  rw [hin, ag, KHostB.w1_2 m ρ c, KHostB.w2_2 m ρ c, KHostB.b1_2 m ρ c, KHostB.b2_2 m ρ c, KHostB.g_2 m ρ c, KHostB.be_2 m ρ c, KHostB.mu_2 m ρ c, KHostB.va_2 m ρ c,
    w0_13 m ρ c main_arg6, w0_13 m ρ c main_arg8, w0_13 m ρ c main_arg7, w0_13 m ρ c main_arg9, w0_13 m ρ c main_arg10, w0_13 m ρ c main_arg11, w0_13 m ρ c main_arg12, w0_13 m ρ c main_arg13]; rfl

theorem layer3 (c : Dev nD) (H : FVec Ideal S50000x128 .f32)
    (hs : ∀ i, 0 ≤ (src m ρ c i).toInt ∧ (src m ρ c i).toInt < 50000)
    (hv1 : W2 m ρ c (Proc.devRef .tc main_v1) = e m ρ c)
    (hh : W15 m ρ c (Proc.devRef .tc main_v89) = H) :
    W19 m ρ c (Proc.devRef .tc main_v117) = upd3 m ρ H c := by
  have hsrc : W15 m ρ c (Proc.devRef .tc main_v3) = src m ρ c := (w3_15 m ρ c main_v3)
  have tk : W16 m ρ c (Proc.devRef .tc main_v90) = Host.gather gather_S50000x128_S500000x1_S500000x128_1_0_n_n_0_1_1128 H (KHostA.idx (src m ρ c)) := by
    rw [KHostA.take3 m ρ c (by rw [hsrc]; exact hs), hsrc, hh]

  have ms : W17 m ρ c (Proc.devRef .tc main_v91) = Cert.Spec.msgSpec (Host.gather gather_S50000x128_S500000x1_S500000x128_1_0_n_n_0_1_1128 H (KHostA.idx (src m ρ c))) (e m ρ c) :=
    (W17_arr m ρ c 2).trans ((Reg8.arr (V16 m ρ) c).trans (congrArg₂ Cert.Spec.msgSpec tk ((v1_16 m ρ c).trans hv1)))

  have ag : W18 m ρ c (Proc.devRef .tc main_v94) = agg m ρ H c := by
    rw [KHostB.agg3 m ρ c, w3_17 m ρ c main_v5, ms]; rfl

  have hin : W18 m ρ c (Proc.devRef .tc main_v89) = H := (Cert.KernelIdeal.Keep.w15_18 m ρ c Cert.KernelIdeal.main_v89).trans hh
  refine (W19_arr m ρ c 10).trans ((Reg9.arr (V18 m ρ) Upd3Pay.out9 c).trans ?_)
  show Cert.Spec.updSpec (W18 m ρ c (Proc.devRef .tc main_v89)) (W18 m ρ c (Proc.devRef .tc main_v94)) (W18 m ρ c (Proc.devRef .tc main_v96)) (W18 m ρ c (Proc.devRef .tc main_v111)) (W18 m ρ c (Proc.devRef .tc main_v100)) (W18 m ρ c (Proc.devRef .tc main_v112)) (W18 m ρ c (Proc.devRef .tc main_v113)) (W18 m ρ c (Proc.devRef .tc main_v114)) (W18 m ρ c (Proc.devRef .tc main_v115)) (W18 m ρ c (Proc.devRef .tc main_v116)) = _
  rw [hin, ag, KHostB.w1_3 m ρ c, KHostB.w2_3 m ρ c, KHostB.b1_3 m ρ c, KHostB.b2_3 m ρ c, KHostB.g_3 m ρ c, KHostB.be_3 m ρ c, KHostB.mu_3 m ρ c, KHostB.va_3 m ρ c,
    w0_17 m ρ c main_arg6, w0_17 m ρ c main_arg8, w0_17 m ρ c main_arg7, w0_17 m ρ c main_arg9, w0_17 m ρ c main_arg10, w0_17 m ρ c main_arg11, w0_17 m ρ c main_arg12, w0_17 m ρ c main_arg13]; rfl

theorem result_eq (c : Dev nD)
    (hx : ∀ i, 0 ≤ (W0 m ρ c (Proc.devRef .tc main_arg0) i).toInt ∧ (W0 m ρ c (Proc.devRef .tc main_arg0) i).toInt < 120)
    (hea : ∀ i, 0 ≤ (W0 m ρ c (Proc.devRef .tc main_arg2) i).toInt ∧ (W0 m ρ c (Proc.devRef .tc main_arg2) i).toInt < 6)
    (hs : ∀ i, 0 ≤ (src m ρ c i).toInt ∧ (src m ρ c i).toInt < 50000) :
    W20 m ρ c (Proc.devRef .tc main_v133) = result m ρ c := by
  have hv1 := enc_edges m ρ c hea
  have l0 := layer0 m ρ c _ hs hv1 (enc_nodes m ρ c hx)
  have l1 := layer1 m ρ c _ hs hv1 l0
  have l2 := layer2 m ρ c _ hs hv1 l1
  have l3 := layer3 m ρ c _ hs hv1 l2
  rw [KHostC.out m ρ c, l3, w0_19 m ρ c main_arg3, w0_19 m ρ c main_arg14, w0_19 m ρ c main_arg15]; rfl

end Cert.KernelIdeal.KChain

end
-- ==== Proof.RKeep.lean ====
import proofs.«416347_j65000035058412_3_alg».proof.Proof.RRun
import proofs.«416347_j65000035058412_3_alg».proof.Proof.LibKeep

noncomputable section

namespace Cert.ReferenceIdeal.RKeep

open Cert.ReferenceIdeal Cert.ReferenceIdeal.Gen Cert.ReferenceIdeal.RRun Cert.LibKeep
open Idealize.ShloMosaic Idealize.ShloMosaic.TcCoe Idealize.SL.Sem

variable {F : FTy → Type} [FloatOps F]
variable (m : (ℓ : Loc nD τ sig) → Buf (Elt F) ℓ)

/-- Each chunk of the program writes only buffers numbered from its first result on. -/
theorem writes :
    WritesFrom 16 (c0 (F := F)) ∧
    WritesFrom 66 (c1 (F := F)) ∧
    WritesFrom 76 (c2 (F := F)) ∧
    WritesFrom 83 (c3 (F := F)) ∧
    WritesFrom 131 (c4 (F := F)) ∧
    WritesFrom 144 (c5 (F := F)) ∧
    WritesFrom 148 (c6 (F := F)) ∧
    WritesFrom 196 (c7 (F := F)) ∧
    WritesFrom 210 (c8 (F := F)) ∧
    WritesFrom 213 (c9 (F := F)) ∧
    WritesFrom 261 (c10 (F := F)) ∧
    WritesFrom 276 (c11 (F := F)) ∧
    WritesFrom 278 (c12 (F := F)) ∧
    WritesFrom 326 (c13 (F := F)) ∧
    WritesFrom 340 (c14 (F := F)) := by
  simp only [WritesFrom, c0, c1, c2, c3, c4, c5, c6, c7, c8, c9, c10, c11, c12, c13, c14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ge_of_eq (by decide)

/-- The first buffer number chunk `s` writes. -/
def lo : ℕ → ℕ
  | 0 => 16
  | 1 => 66
  | 2 => 76
  | 3 => 83
  | 4 => 131
  | 5 => 144
  | 6 => 148
  | 7 => 196
  | 8 => 210
  | 9 => 213
  | 10 => 261
  | 11 => 276
  | 12 => 278
  | 13 => 326
  | _ => 340

/-- The buffer contents between the chunks, in order. -/
def Qn : ℕ → Dev nD → Valuation τ sig (Elt F)
  | 0 => Q0 m
  | 1 => Q1 m
  | 2 => Q2 m
  | 3 => Q3 m
  | 4 => Q4 m
  | 5 => Q5 m
  | 6 => Q6 m
  | 7 => Q7 m
  | 8 => Q8 m
  | 9 => Q9 m
  | 10 => Q10 m
  | 11 => Q11 m
  | 12 => Q12 m
  | 13 => Q13 m
  | 14 => Q14 m
  | _ => Q15 m

theorem step : ∀ (s : ℕ) (c : Dev nD) (b : Ref sig .tc), s < 15 → b.idx.val < lo s →
    Qn m (s + 1) c (Proc.devRef .tc b) = Qn m s c (Proc.devRef .tc b)
  | 0, _, b, _, h => after_keep _ _ _ (writes (F := F)).1 b h
  | 1, _, b, _, h => after_keep _ _ _ (writes (F := F)).2.1 b h
  | 2, _, b, _, h => after_keep _ _ _ (writes (F := F)).2.2.1 b h
  | 3, _, b, _, h => after_keep _ _ _ (writes (F := F)).2.2.2.1 b h
  | 4, _, b, _, h => after_keep _ _ _ (writes (F := F)).2.2.2.2.1 b h
  | 5, _, b, _, h => after_keep _ _ _ (writes (F := F)).2.2.2.2.2.1 b h
  | 6, _, b, _, h => after_keep _ _ _ (writes (F := F)).2.2.2.2.2.2.1 b h
  | 7, _, b, _, h => after_keep _ _ _ (writes (F := F)).2.2.2.2.2.2.2.1 b h
  | 8, _, b, _, h => after_keep _ _ _ (writes (F := F)).2.2.2.2.2.2.2.2.1 b h
  | 9, _, b, _, h => after_keep _ _ _ (writes (F := F)).2.2.2.2.2.2.2.2.2.1 b h
  | 10, _, b, _, h => after_keep _ _ _ (writes (F := F)).2.2.2.2.2.2.2.2.2.2.1 b h
  | 11, _, b, _, h => after_keep _ _ _ (writes (F := F)).2.2.2.2.2.2.2.2.2.2.2.1 b h
  | 12, _, b, _, h => after_keep _ _ _ (writes (F := F)).2.2.2.2.2.2.2.2.2.2.2.2.1 b h
  | 13, _, b, _, h => after_keep _ _ _ (writes (F := F)).2.2.2.2.2.2.2.2.2.2.2.2.2.1 b h
  | 14, _, b, _, h => after_keep _ _ _ (writes (F := F)).2.2.2.2.2.2.2.2.2.2.2.2.2.2 b h
  | _ + 15, _, _, hs, _ => absurd hs (by omega)

/-- A buffer numbered below everything the chunks `i, …, i + k - 1` write holds after them what it held before. -/
theorem keep (i : ℕ) : ∀ (k : ℕ) (c : Dev nD) (b : Ref sig .tc), i + k ≤ 15 → (∀ s < k, b.idx.val < lo (i + s)) →
    Qn m (i + k) c (Proc.devRef .tc b) = Qn m i c (Proc.devRef .tc b)
  | 0, _, _, _, _ => rfl
  | k + 1, c, b, hk, h => (step m (i + k) c b (by omega) (h k k.lt_succ_self)).trans
      (keep i k c b (by omega) fun s hs => h s (Nat.lt_succ_of_lt hs))

section
variable (c : Dev nD) (b : Ref sig .tc)

/-- The spans the program's reading uses, at the contents' own names. -/
theorem q0_3 (h : ∀ s < 3, b.idx.val < lo (0 + s) := by decide) :
    Q3 m c (Proc.devRef .tc b) = Q0 m c (Proc.devRef .tc b) := keep m 0 3 c b (by decide) h
theorem q0_6 (h : ∀ s < 6, b.idx.val < lo (0 + s) := by decide) :
    Q6 m c (Proc.devRef .tc b) = Q0 m c (Proc.devRef .tc b) := keep m 0 6 c b (by decide) h
theorem q0_9 (h : ∀ s < 9, b.idx.val < lo (0 + s) := by decide) :
    Q9 m c (Proc.devRef .tc b) = Q0 m c (Proc.devRef .tc b) := keep m 0 9 c b (by decide) h
theorem q0_12 (h : ∀ s < 12, b.idx.val < lo (0 + s) := by decide) :
    Q12 m c (Proc.devRef .tc b) = Q0 m c (Proc.devRef .tc b) := keep m 0 12 c b (by decide) h
theorem q0_13 (h : ∀ s < 13, b.idx.val < lo (0 + s) := by decide) :
    Q13 m c (Proc.devRef .tc b) = Q0 m c (Proc.devRef .tc b) := keep m 0 13 c b (by decide) h
theorem q0_15 (h : ∀ s < 15, b.idx.val < lo (0 + s) := by decide) :
    Q15 m c (Proc.devRef .tc b) = Q0 m c (Proc.devRef .tc b) := keep m 0 15 c b (by decide) h
theorem q1_3 (h : ∀ s < 2, b.idx.val < lo (1 + s) := by decide) :
    Q3 m c (Proc.devRef .tc b) = Q1 m c (Proc.devRef .tc b) := keep m 1 2 c b (by decide) h
theorem q1_4 (h : ∀ s < 3, b.idx.val < lo (1 + s) := by decide) :
    Q4 m c (Proc.devRef .tc b) = Q1 m c (Proc.devRef .tc b) := keep m 1 3 c b (by decide) h
theorem q1_7 (h : ∀ s < 6, b.idx.val < lo (1 + s) := by decide) :
    Q7 m c (Proc.devRef .tc b) = Q1 m c (Proc.devRef .tc b) := keep m 1 6 c b (by decide) h
theorem q1_10 (h : ∀ s < 9, b.idx.val < lo (1 + s) := by decide) :
    Q10 m c (Proc.devRef .tc b) = Q1 m c (Proc.devRef .tc b) := keep m 1 9 c b (by decide) h
theorem q4_6 (h : ∀ s < 2, b.idx.val < lo (4 + s) := by decide) :
    Q6 m c (Proc.devRef .tc b) = Q4 m c (Proc.devRef .tc b) := keep m 4 2 c b (by decide) h
theorem q7_9 (h : ∀ s < 2, b.idx.val < lo (7 + s) := by decide) :
    Q9 m c (Proc.devRef .tc b) = Q7 m c (Proc.devRef .tc b) := keep m 7 2 c b (by decide) h
theorem q10_12 (h : ∀ s < 2, b.idx.val < lo (10 + s) := by decide) :
    Q12 m c (Proc.devRef .tc b) = Q10 m c (Proc.devRef .tc b) := keep m 10 2 c b (by decide) h
theorem q13_14 (h : ∀ s < 1, b.idx.val < lo (13 + s) := by decide) :
    Q14 m c (Proc.devRef .tc b) = Q13 m c (Proc.devRef .tc b) := keep m 13 1 c b (by decide) h

end

end Cert.ReferenceIdeal.RKeep

end
-- ==== Proof.LibTableGather.lean ====
import Idealize.ShloMosaic.PureOps.Ideal
import Idealize.ShloMosaic.Lib.ValueIdx

noncomputable section

namespace Cert.LibTableGather

open Idealize.ShloMosaic Idealize.ShloMosaic.ValueIdx

variable {α : Type}

theorem axis0_mem : (⟨0, by omega⟩ : Fin 3) ∈ ([0, 1] : List (Fin 3)) := by decide

theorem axis1_mem : (⟨1, by omega⟩ : Fin 3) ∈ ([0, 1] : List (Fin 3)) := by decide

theorem axis2_not_mem : (⟨2, by omega⟩ : Fin 3) ∉ ([0, 1] : List (Fin 3)) := by decide

abbrev tblDims (A B C R A' : Nat)
    (wf : GatherDims.WF ⟨3, ![A, B, C]⟩ ⟨3, ![R, A', 2]⟩ ⟨3, ![R, A', C]⟩ [2] [0, 1] [] [0, 1] [] 2 ![1, 1, C]) :
    GatherDims ⟨3, ![A, B, C]⟩ ⟨3, ![R, A', 2]⟩ ⟨3, ![R, A', C]⟩ where
  offsetDims := [2]
  collapsedSliceDims := [0, 1]
  operandBatchingDims := []
  startIndicesBatchingDims := []
  startIndexMap := [0, 1]
  indexVectorDim := 2
  sliceSizes := ![1, 1, C]
  wf := wf

theorem gather_tbl_apply {A B C R A' w : Nat} (hA : 0 < A) (hB : 0 < B)
    (wf : GatherDims.WF ⟨3, ![A, B, C]⟩ ⟨3, ![R, A', 2]⟩ ⟨3, ![R, A', C]⟩ [2] [0, 1] [] [0, 1] [] 2 ![1, 1, C])
    (x : (⟨3, ![A, B, C]⟩ : Shape).Idx → α) (idx : IVec ⟨3, ![R, A', 2]⟩ w) (y : (⟨3, ![R, A', C]⟩ : Shape).Idx) :
    Host.gather (tblDims A B C R A' wf) x idx y
      = x (ix3
          (⟨min (idx (ix3 (⟨(y 0).val, (y 0).isLt⟩ : Fin R) (⟨(y 1).val, (y 1).isLt⟩ : Fin A') (0 : Fin 2))).toInt.toNat (A - 1),
            by omega⟩ : Fin A)
          (⟨min (idx (ix3 (⟨(y 0).val, (y 0).isLt⟩ : Fin R) (⟨(y 1).val, (y 1).isLt⟩ : Fin A') (1 : Fin 2))).toInt.toNat (B - 1),
            by omega⟩ : Fin B)
          (⟨(y 2).val, (y 2).isLt⟩ : Fin C)) := by
  unfold Host.gather
  congr 1
  funext a
  refine Fin.ext ?_
  match a with
  | ⟨0, h0⟩ =>

    show (tblDims A B C R A' wf).start y idx ⟨0, h0⟩ + (tblDims A B C R A' wf).batchCoord y ⟨0, h0⟩
      + (tblDims A B C R A' wf).offCoord y ⟨0, h0⟩ = _
    rw [GatherDims.batchCoord_eq_zero _ _ _ List.not_mem_nil,
      GatherDims.offCoord_eq_zero _ _ _ (fun h => ((GatherDims.mem_sKept _ _).mp h).1 axis0_mem)]
    simp only [Nat.add_zero]
    unfold GatherDims.start
    have hm : (⟨0, h0⟩ : Fin 3) ∈ (tblDims A B C R A' wf).startIndexMap := axis0_mem
    rw [dif_pos hm]
    have hsi : (tblDims A B C R A' wf).siIdx y ⟨List.idxOf (⟨0, h0⟩ : Fin 3) (tblDims A B C R A' wf).startIndexMap,
        List.idxOf_lt_length_iff.2 hm⟩
        = ix3 (⟨(y 0).val, (y 0).isLt⟩ : Fin R) (⟨(y 1).val, (y 1).isLt⟩ : Fin A') (0 : Fin 2) := by
      funext b; refine Fin.ext ?_
      match b with
      | ⟨0, _⟩ => rfl
      | ⟨1, _⟩ => rfl
      | ⟨2, _⟩ => rfl
    rw [hsi]
    rfl
  | ⟨1, h1⟩ =>

    show (tblDims A B C R A' wf).start y idx ⟨1, h1⟩ + (tblDims A B C R A' wf).batchCoord y ⟨1, h1⟩
      + (tblDims A B C R A' wf).offCoord y ⟨1, h1⟩ = _
    rw [GatherDims.batchCoord_eq_zero _ _ _ List.not_mem_nil,
      GatherDims.offCoord_eq_zero _ _ _ (fun h => ((GatherDims.mem_sKept _ _).mp h).1 axis1_mem)]
    simp only [Nat.add_zero]
    unfold GatherDims.start
    have hm : (⟨1, h1⟩ : Fin 3) ∈ (tblDims A B C R A' wf).startIndexMap := axis1_mem
    rw [dif_pos hm]
    have hsi : (tblDims A B C R A' wf).siIdx y ⟨List.idxOf (⟨1, h1⟩ : Fin 3) (tblDims A B C R A' wf).startIndexMap,
        List.idxOf_lt_length_iff.2 hm⟩
        = ix3 (⟨(y 0).val, (y 0).isLt⟩ : Fin R) (⟨(y 1).val, (y 1).isLt⟩ : Fin A') (1 : Fin 2) := by
      funext b; refine Fin.ext ?_
      match b with
      | ⟨0, _⟩ => rfl
      | ⟨1, _⟩ => rfl
      | ⟨2, _⟩ => rfl
    rw [hsi]
    rfl
  | ⟨2, h2⟩ =>

    show (tblDims A B C R A' wf).start y idx ⟨2, h2⟩ + (tblDims A B C R A' wf).batchCoord y ⟨2, h2⟩
      + (tblDims A B C R A' wf).offCoord y ⟨2, h2⟩ = _
    rw [GatherDims.batchCoord_eq_zero _ _ _ List.not_mem_nil]
    have hs : (tblDims A B C R A' wf).start y idx ⟨2, h2⟩ = 0 := by
      unfold GatherDims.start
      rw [dif_neg (show (⟨2, h2⟩ : Fin 3) ∉ (tblDims A B C R A' wf).startIndexMap from axis2_not_mem)]
    rw [hs]
    simp only [Nat.add_zero, Nat.zero_add]
    unfold GatherDims.offCoord
    rw [dif_pos (show (⟨2, h2⟩ : Fin 3) ∈ (tblDims A B C R A' wf).sKept from
      (GatherDims.mem_sKept _ _).mpr ⟨axis2_not_mem, List.not_mem_nil⟩)]
    rfl

end Cert.LibTableGather

end
-- ==== Proof.REnc0.lean ====
import proofs.«416347_j65000035058412_3_alg».proof.Proof.RRun
import proofs.«416347_j65000035058412_3_alg».proof.Proof.Spec
import proofs.«416347_j65000035058412_3_alg».proof.Proof.LibTableGather
import Idealize.ShloMosaic.PureOps.Ideal
import Idealize.ShloMosaic.Lib.StableHlo.Run
import Idealize.ShloMosaic.Lib.Pipeline.Value
import Idealize.ShloMosaic.Lib.StableHlo.Predicate

noncomputable section

namespace Cert.ReferenceIdeal.REnc0

open Cert.ReferenceIdeal Cert.ReferenceIdeal.Gen Cert.ReferenceIdeal.RRun
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ)

def featRow : IVec S1x9 32 :=
  select
    (cmpi CmpIPredicate.slt (broadcastInDim S1x9 ![1] bcast_S9_S1x9_1 (iotaInDim S9 32 0))
      (broadcastInDim S1x9 ![] bcast_S_S1x9 (constantI S_ 32 0#32)))
    (addi (broadcastInDim S1x9 ![1] bcast_S9_S1x9_1 (iotaInDim S9 32 0))
      (broadcastInDim S1x9 ![] bcast_S_S1x9 (constantI S_ 32 9#32)))
    (broadcastInDim S1x9 ![1] bcast_S9_S1x9_1 (iotaInDim S9 32 0))

def wrapX (x : IVec S50000x9 32) : IVec S50000x9 32 :=
  select
    (cmpi CmpIPredicate.slt x (broadcastInDim S50000x9 ![] bcast_S_S50000x9 (constantI S_ 32 0#32)))
    (addi x (broadcastInDim S50000x9 ![] bcast_S_S50000x9 (constantI S_ 32 120#32)))
    x

def pairs (x : IVec S50000x9 32) : IVec S50000x9x2 32 :=
  concatenate S50000x9x2 2
    [⟨S50000x9x1,
        broadcastInDim S50000x9x1 ![0, 1] bcast_S50000x9_S50000x9x1_0_1
          (broadcastInDim S50000x9 ![0, 1] bcast_S1x9_S50000x9_0_1 featRow)⟩,
      ⟨S50000x9x1, broadcastInDim S50000x9x1 ![0, 1] bcast_S50000x9_S50000x9x1_0_1 (wrapX x)⟩]
    concatenates_S50000x9x1_S50000x9x1_S50000x9x2_d2

def enc (x : IVec S50000x9 32) (emb : FVec Ideal S9x120x128 .f32) : FVec Ideal S50000x128 .f32 :=
  Host.reduceAdd
    (Host.gather gather_S9x120x128_S50000x9x2_S50000x9x128_2_01_n_n_01_2_11128 emb (pairs x))
    (constant (F := Ideal) S_ .f32 0x00000000#32) reducesTo_S50000x9x128_S50000x128_d1 h_S_

set_option maxHeartbeats 4000000 in

theorem c0_v17 (V : Valuation τ sig (Elt Ideal)) :
    StableHlo.after c0 V (Proc.devRef .tc main_v17) = enc (V (Proc.devRef .tc main_arg0)) (V (Proc.devRef .tc main_arg4)) := by
  after_results
  rfl

theorem read (c : Dev nD) :
    Q1 m c (Proc.devRef .tc main_v17) = enc (Q0 m c (Proc.devRef .tc main_arg0)) (Q0 m c (Proc.devRef .tc main_arg4)) :=
  c0_v17 (Q0 m c)

theorem featRow_apply (f : Fin 9) : featRow (ix2 (0 : Fin 1) f) = BitVec.ofNat 32 f.val := by
  fin_cases f <;> rfl

theorem wrapX_apply (x : IVec S50000x9 32) (i : S50000x9.Idx) (h : 0 ≤ (x i).toInt) : wrapX x i = x i := by
  unfold wrapX
  rw [select_apply]
  show Scalar.select (IntOp.cmpi .slt (x i) 0#32) _ _ = _
  have hc : IntOp.cmpi .slt (x i) 0#32 = 0#1 := by
    show BitVec.ofBool ((x i).slt 0#32) = 0#1
    have : (x i).slt 0#32 = false := by
      simp only [BitVec.slt]
      simp
      omega
    rw [this]; rfl
  rw [hc, select_zero]

theorem pairs_apply0 (x : IVec S50000x9 32) (n : Fin 50000) (f : Fin 9) :
    pairs x (ix3 n f (0 : Fin 2)) = BitVec.ofNat 32 f.val := by
  unfold pairs
  rw [concatenate_pair_apply_left (t := S50000x9x2) (s₁ := S50000x9x1) (s₂ := S50000x9x1) (a := (2 : Fin 3))
    (h := concatenates_S50000x9x1_S50000x9x1_S50000x9x2_d2)
    (j := ix3 n f (0 : Fin 2)) (hr := rfl) (i := (ix3 n f (0 : Fin 1) : S50000x9x1.Idx))
    (hi := by intro b; match b with | ⟨0, _⟩ => rfl | ⟨1, _⟩ => rfl | ⟨2, _⟩ => rfl)]
  rw [broadcastInDim_apply _ _ _ _ (ix2 n f) (by intro a; match a with | ⟨0, _⟩ => rfl | ⟨1, _⟩ => rfl)]
  rw [broadcastInDim_apply _ _ _ _ (ix2 (0 : Fin 1) f) (by intro a; match a with | ⟨0, _⟩ => rfl | ⟨1, _⟩ => rfl)]
  exact featRow_apply f

theorem pairs_apply1 (x : IVec S50000x9 32) (n : Fin 50000) (f : Fin 9) (h : 0 ≤ (x (ix2 n f)).toInt) :
    pairs x (ix3 n f (1 : Fin 2)) = x (ix2 n f) := by
  unfold pairs
  rw [concatenate_pair_apply_right (t := S50000x9x2) (s₁ := S50000x9x1) (s₂ := S50000x9x1) (a := (2 : Fin 3))
    (h := concatenates_S50000x9x1_S50000x9x1_S50000x9x2_d2)
    (j := ix3 n f (1 : Fin 2)) (hr := rfl) (hr₂ := rfl) (i := (ix3 n f (0 : Fin 1) : S50000x9x1.Idx))
    (hi := by intro b hb; match b with | ⟨0, _⟩ => rfl | ⟨1, _⟩ => rfl | ⟨2, _⟩ => exact absurd rfl hb) (ha := rfl)]
  rw [broadcastInDim_apply _ _ _ _ (ix2 n f) (by intro a; match a with | ⟨0, _⟩ => rfl | ⟨1, _⟩ => rfl)]
  exact wrapX_apply x _ h

theorem dims_eq : gather_S9x120x128_S50000x9x2_S50000x9x128_2_01_n_n_01_2_11128
    = Cert.LibTableGather.tblDims 9 120 128 50000 9 gather_S9x120x128_S50000x9x2_S50000x9x128_2_01_n_n_01_2_11128_wf := rfl

theorem enc_eq (x : IVec S50000x9 32) (emb : FVec Ideal S9x120x128 .f32)
    (hx : ∀ i, 0 ≤ (x i).toInt ∧ (x i).toInt < 120) : enc x emb = Cert.Spec.encSpec (by decide) x emb := by
  funext i
  obtain ⟨n, d, rfl⟩ : ∃ n d, i = ix2 n d := ⟨i 0, i 1, eq_ix2 i⟩
  show Ideal.hostReduceAdd reducesTo_S50000x9x128_S50000x128_d1 _
    (constant (F := Ideal) S_ .f32 0x00000000#32 (Shape.Idx.first h_S_)) (ix2 n d) = _
  rw [Ideal.hostReduceAdd_single reducesTo_S50000x9x128_S50000x128_d1 (by decide), constant_apply, Ideal.ofBits_zero_f32, zero_add]
  unfold Cert.Spec.encSpec
  refine Finset.sum_congr rfl fun f _ => ?_
  have hf : f.val < 9 := f.isLt
  rw [dims_eq, Cert.LibTableGather.gather_tbl_apply (by decide) (by decide)]
  congr 1
  funext a
  refine Fin.ext ?_
  match a with
  | ⟨0, _⟩ =>
    show min (pairs x (ix3 _ _ (0 : Fin 2))).toInt.toNat (9 - 1) = f.val
    rw [pairs_apply0]
    show min (BitVec.ofNat 32 f.val).toInt.toNat (9 - 1) = f.val
    rw [StableHlo.Predicate.toInt_ofNat_small f.val (by omega)]
    omega
  | ⟨1, _⟩ =>
    show min (pairs x (ix3 _ _ (1 : Fin 2))).toInt.toNat (120 - 1) = min (x (ix2 _ f)).toInt.toNat (120 - 1)
    rw [pairs_apply1 _ _ _ (hx _).1]
    rfl
  | ⟨2, _⟩ => rfl

end Cert.ReferenceIdeal.REnc0

end
-- ==== Proof.REnc1.lean ====
import proofs.«416347_j65000035058412_3_alg».proof.Proof.RRun
import proofs.«416347_j65000035058412_3_alg».proof.Proof.Spec
import Idealize.ShloMosaic.PureOps.Ideal
import Idealize.ShloMosaic.Lib.StableHlo.Run
import Idealize.ShloMosaic.Lib.StableHlo.Predicate
import Idealize.ShloMosaic.Lib.Pipeline.Value
import proofs.«416347_j65000035058412_3_alg».proof.Proof.LibTableGather

noncomputable section

namespace Cert.ReferenceIdeal.REnc1

open Cert.ReferenceIdeal Cert.ReferenceIdeal.Gen Cert.ReferenceIdeal.RRun
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ)

def pairs (x : IVec S500000x3 32) : IVec S500000x3x2 32 :=
  concatenate S500000x3x2 2
    [⟨S500000x3x1,
        broadcastInDim S500000x3x1 ![0, 1] bcast_S500000x3_S500000x3x1_0_1
          (broadcastInDim S500000x3 ![0, 1] bcast_S1x3_S500000x3_0_1
            (select
              (cmpi CmpIPredicate.slt (broadcastInDim S1x3 ![1] bcast_S3_S1x3_1 (iotaInDim S3 32 0))
                (broadcastInDim S1x3 ![] bcast_S_S1x3 (constantI S_ 32 0#32)))
              (addi (broadcastInDim S1x3 ![1] bcast_S3_S1x3_1 (iotaInDim S3 32 0))
                (broadcastInDim S1x3 ![] bcast_S_S1x3 (constantI S_ 32 3#32)))
              (broadcastInDim S1x3 ![1] bcast_S3_S1x3_1 (iotaInDim S3 32 0))))⟩,
      ⟨S500000x3x1,
        broadcastInDim S500000x3x1 ![0, 1] bcast_S500000x3_S500000x3x1_0_1
          (select
            (cmpi CmpIPredicate.slt x
              (broadcastInDim S500000x3 ![] bcast_S_S500000x3 (constantI S_ 32 0#32)))
            (addi x
              (broadcastInDim S500000x3 ![] bcast_S_S500000x3 (constantI S_ 32 6#32)))
            x)⟩]
    concatenates_S500000x3x1_S500000x3x1_S500000x3x2_d2

def enc (x : IVec S500000x3 32) (emb : FVec Ideal S3x6x128 .f32) : FVec Ideal S500000x128 .f32 :=
  Host.reduceAdd
    (Host.gather gather_S3x6x128_S500000x3x2_S500000x3x128_2_01_n_n_01_2_11128 emb (pairs x))
    (constant (F := Ideal) S_ FTy.f32 0#32) reducesTo_S500000x3x128_S500000x128_d1 h_S_

set_option maxHeartbeats 4000000 in

theorem read (c : Dev nD) : Q1 m c (Proc.devRef .tc main_v35)
    = enc (Q0 m c (Proc.devRef .tc main_arg2)) (Q0 m c (Proc.devRef .tc main_arg5)) := by
  show StableHlo.after c0 (Q0 m c) (Proc.devRef .tc main_v35) = _
  after_results
  rfl

theorem src (c : Dev nD) : Q1 m c (Proc.devRef .tc main_v37)
    = shapeCast S500000 (extractStridedSlice S1x500000 ![0, 0] (Q0 m c (Proc.devRef .tc main_arg1)) slices_S2x500000_S1x500000_0_0)
        shapeCasts_S1x500000_S500000 := by
  show StableHlo.after c0 (Q0 m c) (Proc.devRef .tc main_v37) = _
  after_results
  rfl

theorem dst (c : Dev nD) : Q1 m c (Proc.devRef .tc main_v39)
    = shapeCast S500000 (extractStridedSlice S1x500000 ![1, 0] (Q0 m c (Proc.devRef .tc main_arg1)) slices_S2x500000_S1x500000_1_0)
        shapeCasts_S1x500000_S500000 := by
  show StableHlo.after c0 (Q0 m c) (Proc.devRef .tc main_v39) = _
  after_results
  rfl

theorem wrap_feature (f : Fin 3) :
    Scalar.select (IntOp.cmpi CmpIPredicate.slt (BitVec.ofNat 32 f.val) 0#32)
      (IntOp.addi (BitVec.ofNat 32 f.val) 3#32) (BitVec.ofNat 32 f.val) = BitVec.ofNat 32 f.val := by
  fin_cases f <;> rfl

theorem wrap_nonneg (a b : BitVec 32) (h : 0 ≤ a.toInt) :
    Scalar.select (IntOp.cmpi CmpIPredicate.slt a 0#32) (IntOp.addi a b) a = a := by
  have e : IntOp.cmpi CmpIPredicate.slt a 0#32 = 0#1 := by
    show BitVec.ofBool (a.slt 0#32) = 0#1
    have : a.slt 0#32 = false := by
      rw [BitVec.slt]; simp only [BitVec.toInt_zero, decide_eq_false_iff_not, not_lt]; exact h
    rw [this]; rfl
  rw [e]; exact select_zero _ _

theorem pairs_fst (x : IVec S500000x3 32) (n : Fin 500000) (f : Fin 3) :
    pairs x (ix3 n f (0 : Fin 2)) = BitVec.ofNat 32 f.val := by
  unfold pairs
  refine (concatenate_pair_apply_left (t := S500000x3x2) (s₁ := S500000x3x1) (s₂ := S500000x3x1) (2 : Fin 3) _ _ concatenates_S500000x3x1_S500000x3x1_S500000x3x2_d2
    (ix3 n f (0 : Fin 2)) rfl (ix3 n f (0 : Fin 1)) ?_).trans ?_
  · intro b
    match b with
    | ⟨0, _⟩ => rfl
    | ⟨1, _⟩ => rfl
    | ⟨2, _⟩ => rfl
  refine (broadcastInDim_apply ![0, 1] bcast_S500000x3_S500000x3x1_0_1 _ (ix3 n f (0 : Fin 1)) (ix2 n f) ?_).trans ?_
  · intro a
    match a with
    | ⟨0, _⟩ => rfl
    | ⟨1, _⟩ => rfl
  refine (broadcastInDim_apply ![0, 1] bcast_S1x3_S500000x3_0_1 _ (ix2 n f) (ix2 (0 : Fin 1) f) ?_).trans ?_
  · intro a
    match a with
    | ⟨0, _⟩ => rfl
    | ⟨1, _⟩ => rfl
  exact wrap_feature f

theorem pairs_snd (x : IVec S500000x3 32) (n : Fin 500000) (f : Fin 3) (h : 0 ≤ (x (ix2 n f)).toInt) :
    pairs x (ix3 n f (1 : Fin 2)) = x (ix2 n f) := by
  unfold pairs
  refine (concatenate_pair_apply_right (t := S500000x3x2) (s₁ := S500000x3x1) (s₂ := S500000x3x1) (2 : Fin 3) _ _ concatenates_S500000x3x1_S500000x3x1_S500000x3x2_d2
    (ix3 n f (1 : Fin 2)) rfl rfl (ix3 n f (0 : Fin 1)) ?_ ?_).trans ?_
  · intro b hb
    match b, hb with
    | ⟨0, _⟩, _ => rfl
    | ⟨1, _⟩, _ => rfl
    | ⟨2, _⟩, hb => exact absurd rfl hb
  · rfl
  refine (broadcastInDim_apply ![0, 1] bcast_S500000x3_S500000x3x1_0_1 _ (ix3 n f (0 : Fin 1)) (ix2 n f) ?_).trans ?_
  · intro a
    match a with
    | ⟨0, _⟩ => rfl
    | ⟨1, _⟩ => rfl
  exact wrap_nonneg (x (ix2 n f)) 6#32 h

theorem dims_eq : gather_S3x6x128_S500000x3x2_S500000x3x128_2_01_n_n_01_2_11128
    = Cert.LibTableGather.tblDims 3 6 128 500000 3 gather_S3x6x128_S500000x3x2_S500000x3x128_2_01_n_n_01_2_11128_wf := rfl

theorem reduces_feat : S500000x3x128.Reduces [1] S500000x128 := by decide

theorem enc_eq (x : IVec S500000x3 32) (emb : FVec Ideal S3x6x128 .f32)
    (hx : ∀ i, 0 ≤ (x i).toInt ∧ (x i).toInt < 6) : enc x emb = Cert.Spec.encSpec (by decide) x emb := by
  funext i
  obtain ⟨n, d, rfl⟩ : ∃ n d, i = ix2 n d := ⟨i 0, i 1, eq_ix2 i⟩
  show Ideal.hostReduceAdd reducesTo_S500000x3x128_S500000x128_d1 _
    (constant (F := Ideal) S_ .f32 0x00000000#32 (Shape.Idx.first h_S_)) (ix2 n d) = _
  rw [Ideal.hostReduceAdd_single reducesTo_S500000x3x128_S500000x128_d1 reduces_feat]
  rw [constant_apply, Ideal.ofBits_zero_f32, zero_add]
  unfold Cert.Spec.encSpec
  refine Finset.sum_congr rfl fun f _ => ?_
  have hf : f.val < 3 := f.isLt
  rw [dims_eq, Cert.LibTableGather.gather_tbl_apply (by decide) (by decide)]
  congr 1
  funext a
  refine Fin.ext ?_
  match a with
  | ⟨0, _⟩ =>
    show min (pairs x (ix3 _ _ (0 : Fin 2))).toInt.toNat (3 - 1) = f.val
    rw [pairs_fst]
    show min (BitVec.ofNat 32 f.val).toInt.toNat (3 - 1) = f.val
    rw [StableHlo.Predicate.toInt_ofNat_small f.val (by omega)]
    omega
  | ⟨1, _⟩ =>
    show min (pairs x (ix3 _ _ (1 : Fin 2))).toInt.toNat (6 - 1) = min (x (ix2 _ f)).toInt.toNat (6 - 1)
    rw [pairs_snd _ _ _ (hx _).1]
    rfl
  | ⟨2, _⟩ => rfl

end Cert.ReferenceIdeal.REnc1

end
-- ==== Proof.RLayerA.lean ====
import proofs.«416347_j65000035058412_3_alg».proof.Proof.RRun
import proofs.«416347_j65000035058412_3_alg».proof.Proof.Spec

noncomputable section

namespace Cert.ReferenceIdeal.RLayerA

open Cert.ReferenceIdeal Cert.ReferenceIdeal.Gen Cert.ReferenceIdeal.RRun
open Idealize.ShloMosaic Idealize.ShloMosaic.StableHlo

variable (m : (ℓ : Loc nD τ sig) → Buf (Elt Ideal) ℓ)

def wrap (s : IVec S500000 32) : IVec S500000 32 := select (cmpi .slt s (broadcastInDim S500000 ![] bcast_S_S500000 (constantI S_ 32 0#32))) (addi s (broadcastInDim S500000 ![] bcast_S_S500000 (constantI S_ 32 50000#32))) s

def idx (s : IVec S500000 32) : IVec S500000x1 32 := broadcastInDim S500000x1 ![0] bcast_S500000_S500000x1_0 (wrap s)

def zeros : FVec Ideal S50000x128 .f32 := broadcastInDim S50000x128 ![] bcast_S_S50000x128 (constant (F := Ideal) S_ .f32 0x00000000#32)

theorem msg_eq (a b : FVec Ideal S500000x128 .f32) :
    maximumf (addf a b) (broadcastInDim S500000x128 ![] bcast_S_S500000x128 (constant (F := Ideal) S_ .f32 0x00000000#32)) = Cert.Spec.msgSpec a b := by
  funext i
  unfold Cert.Spec.msgSpec
  simp only [maximumf, addf, broadcastInDim, constant, Ideal.maximumf_def, Ideal.addf_def, Ideal.ofBits_def, Ideal.ofBits_zero_f32]

theorem agg0 (c : Dev nD) : Q3 m c (Proc.devRef .tc main_v51) =
    Host.scatterAdd scatter_S50000x128_S500000x1_S500000x128_1_0_0_1 zeros
      (broadcastInDim S500000x1 ![0] bcast_S500000_S500000x1_0 (Q1 m c (Proc.devRef .tc main_v39)))
      (Cert.Spec.msgSpec (Host.gather gather_S50000x128_S500000x1_S500000x128_1_0_n_n_0_1_1128 (Q1 m c (Proc.devRef .tc main_v17)) (idx (Q1 m c (Proc.devRef .tc main_v37)))) (Q1 m c (Proc.devRef .tc main_v35))) := by
  show StableHlo.after c2 (StableHlo.after c1 (Q1 m c)) (Proc.devRef .tc main_v51) = _
  generalize Q1 m c = V
  after_results_simp
  simp only [TRef.ofBuf, TRef.toBuf, cast_eq]
  rw [msg_eq]
  rfl

theorem agg1 (c : Dev nD) : Q6 m c (Proc.devRef .tc main_v106) =
    Host.scatterAdd scatter_S50000x128_S500000x1_S500000x128_1_0_0_1 zeros
      (broadcastInDim S500000x1 ![0] bcast_S500000_S500000x1_0 (Q4 m c (Proc.devRef .tc main_v39)))
      (Cert.Spec.msgSpec (Host.gather gather_S50000x128_S500000x1_S500000x128_1_0_n_n_0_1_1128 (Q4 m c (Proc.devRef .tc main_v94)) (idx (Q4 m c (Proc.devRef .tc main_v37)))) (Q4 m c (Proc.devRef .tc main_v35))) := by
  show StableHlo.after c5 (StableHlo.after c4 (Q4 m c)) (Proc.devRef .tc main_v106) = _
  generalize Q4 m c = V
  after_results_simp
  simp only [TRef.ofBuf, TRef.toBuf, cast_eq]
  rw [msg_eq]
  rfl

theorem agg2 (c : Dev nD) : Q9 m c (Proc.devRef .tc main_v161) =
    Host.scatterAdd scatter_S50000x128_S500000x1_S500000x128_1_0_0_1 zeros
      (broadcastInDim S500000x1 ![0] bcast_S500000_S500000x1_0 (Q7 m c (Proc.devRef .tc main_v39)))
      (Cert.Spec.msgSpec (Host.gather gather_S50000x128_S500000x1_S500000x128_1_0_n_n_0_1_1128 (Q7 m c (Proc.devRef .tc main_v149)) (idx (Q7 m c (Proc.devRef .tc main_v37)))) (Q7 m c (Proc.devRef .tc main_v35))) := by
  show StableHlo.after c8 (StableHlo.after c7 (Q7 m c)) (Proc.devRef .tc main_v161) = _
  generalize Q7 m c = V
  after_results_simp
  simp only [TRef.ofBuf, TRef.toBuf, cast_eq]
  rw [msg_eq]
  rfl

theorem agg3 (c : Dev nD) : Q12 m c (Proc.devRef .tc main_v216) =
    Host.scatterAdd scatter_S50000x128_S500000x1_S500000x128_1_0_0_1 zeros
      (broadcastInDim S500000x1 ![0] bcast_S500000_S500000x1_0 (Q10 m c (Proc.devRef .tc main_v39)))
      (Cert.Spec.msgSpec (Host.gather gather_S50000x128_S500000x1_S500000x128_1_0_n_n_0_1_1128 (Q10 m c (Proc.devRef .tc main_v204)) (idx (Q10 m c (Proc.devRef .tc main_v37)))) (Q10 m c (Proc.devRef .tc main_v35))) := by
  show StableHlo.after c11 (StableHlo.after c10 (Q10 m c)) (Proc.devRef .tc main_v216) = _
  generalize Q10 m c = V
  after_results_simp
  simp only [TRef.ofBuf, TRef.toBuf, cast_eq]
  rw [msg_eq]
  rfl

end Cert.ReferenceIdeal.RLayerA

end
-- ==== Proof.RCore.lean ====
import proofs.«416347_j65000035058412_3_alg».proof.Proof.Gen.ReferenceIdeal
import proofs.«416347_j65000035058412_3_alg».proof.Proof.Spec
import proofs.«416347_j65000035058412_3_alg».proof.Proof.LibPlainDot
import Idealize.ShloMosaic.Lib.Pipeline.Value

noncomputable section

namespace Cert.ReferenceIdeal.RCore

open Cert.ReferenceIdeal Cert.ReferenceIdeal.Gen
open Idealize.ShloMosaic Idealize.ShloMosaic.ValueIdx

def core (h agg : FVec Ideal S50000x128 .f32) (W1 : FVec Ideal S128x128 .f32) (b1 : FVec Ideal S128 .f32)
    (W2 : FVec Ideal S128x128 .f32) (b2 g be mu va : FVec Ideal S128 .f32) : FVec Ideal S50000x128 .f32 :=
  addf h
    (maximumf
      (addf
        (mulf
          (mulf
            (subf
              (addf
                (Host.dotGeneral dot_S50000x128_S128x128_S50000x128_1_0_0_1_n_n none
                  (maximumf
                    (addf
                      (Host.dotGeneral dot_S50000x128_S128x128_S50000x128_1_0_0_1_n_n none (addf h agg) W1)
                      (broadcastInDim S50000x128 ![0, 1] bcast_S1x128_S50000x128_0_1
                        (broadcastInDim S1x128 ![1] bcast_S128_S1x128_1 b1)))
                    (broadcastInDim S50000x128 ![] bcast_S_S50000x128 (constant (F := Ideal) S_ .f32 0x00000000#32)))
                  W2)
                (broadcastInDim S50000x128 ![0, 1] bcast_S1x128_S50000x128_0_1
                  (broadcastInDim S1x128 ![1] bcast_S128_S1x128_1 b2)))
              (broadcastInDim S50000x128 ![0, 1] bcast_S1x128_S50000x128_0_1
                (broadcastInDim S1x128 ![1] bcast_S128_S1x128_1 mu)))
            (broadcastInDim S50000x128 ![0, 1] bcast_S1x128_S50000x128_0_1
              (broadcastInDim S1x128 ![1] bcast_S128_S1x128_1
                (Host.rsqrt
                  (addf va (broadcastInDim S128 ![] bcast_S_S128 (constant (F := Ideal) S_ .f32 0x3727C5AC#32)))))))
          (broadcastInDim S50000x128 ![0, 1] bcast_S1x128_S50000x128_0_1
            (broadcastInDim S1x128 ![1] bcast_S128_S1x128_1 g)))
        (broadcastInDim S50000x128 ![0, 1] bcast_S1x128_S50000x128_0_1
          (broadcastInDim S1x128 ![1] bcast_S128_S1x128_1 be)))
      (broadcastInDim S50000x128 ![] bcast_S_S50000x128 (constant (F := Ideal) S_ .f32 0x00000000#32)))

theorem splat_apply (t : Shape) (hb : S_.BroadcastsInDim t ![]) (w : BitVec 32) (i : t.Idx) :
    broadcastInDim t ![] hb (constant (F := Ideal) S_ .f32 w) i = Ideal.ofBits .f32 w :=
  (broadcastInDim_apply _ _ _ i ix0 (fun a => a.elim0)).trans (constant_apply _ _)

theorem rowB_apply (v : FVec Ideal S128 .f32) (n : Fin 50000) (d : Fin 128) :
    broadcastInDim S50000x128 ![0, 1] bcast_S1x128_S50000x128_0_1
        (broadcastInDim S1x128 ![1] bcast_S128_S1x128_1 v) (ix2 n d)
      = Cert.Spec.row v (ix2 (0 : Fin 1) d) := by
  rw [broadcastInDim_apply _ _ _ (ix2 n d) (ix2 (0 : Fin 1) d)
        (fun a => by match a with | ⟨0, _⟩ => rfl | ⟨1, _⟩ => rfl),
    broadcastInDim_apply _ _ _ (ix2 (0 : Fin 1) d) (ix1 d) (fun a => by match a with | ⟨0, _⟩ => rfl)]
  rfl

theorem dot_apply (l : FVec Ideal S50000x128 .f32) (r : FVec Ideal S128x128 .f32) (p : Fin 50000) (q : Fin 128) :
    Host.dotGeneral dot_S50000x128_S128x128_S50000x128_1_0_0_1_n_n none l r (ix2 p q)
      = ∑ k : Fin 128, l (ix2 p k) * r (ix2 k q) := by
  rw [← Idealize.ShloMosaic.PlainDot.matmul_zero_apply dot_S50000x128_S128x128_S50000x128_1_0_0_1_n_n
        rfl rfl rfl rfl rfl rfl rfl rfl none l r p q, Ideal.matmul_constant_zero_apply]
  exact Ideal.dotGeneral_apply _ _ _ l r _

theorem hid_apply (h agg : FVec Ideal S50000x128 .f32) (W1 : FVec Ideal S128x128 .f32) (b1 : FVec Ideal S128 .f32)
    (n : Fin 50000) (k : Fin 128) :
    maximumf
        (addf
          (Host.dotGeneral dot_S50000x128_S128x128_S50000x128_1_0_0_1_n_n none (addf h agg) W1)
          (broadcastInDim S50000x128 ![0, 1] bcast_S1x128_S50000x128_0_1
            (broadcastInDim S1x128 ![1] bcast_S128_S1x128_1 b1)))
        (broadcastInDim S50000x128 ![] bcast_S_S50000x128 (constant (F := Ideal) S_ .f32 0x00000000#32)) (ix2 n k)
      = Cert.Spec.hid h agg W1 (Cert.Spec.row b1) n k := by
  rw [maximumf_apply, addf_apply, splat_apply, Ideal.ofBits_zero_f32, rowB_apply, dot_apply]
  rfl

theorem core_eq (h agg : FVec Ideal S50000x128 .f32) (W1 : FVec Ideal S128x128 .f32) (b1 : FVec Ideal S128 .f32)
    (W2 : FVec Ideal S128x128 .f32) (b2 g be mu va : FVec Ideal S128 .f32) :
    core h agg W1 b1 W2 b2 g be mu va
      = Cert.Spec.updSpec h agg W1 (Cert.Spec.row b1) W2 (Cert.Spec.row b2) (Cert.Spec.row g) (Cert.Spec.row be)
          (Cert.Spec.row mu) (Cert.Spec.row va) := by
  funext i
  obtain ⟨n, d, rfl⟩ : ∃ (n : Fin 50000) (d : Fin 128), i = ix2 n d := ⟨i 0, i 1, eq_ix2 i⟩
  unfold core
  rw [addf_apply, maximumf_apply, splat_apply, Ideal.ofBits_zero_f32, addf_apply, mulf_apply, mulf_apply, subf_apply, addf_apply,
    rowB_apply b2, rowB_apply mu, rowB_apply g, rowB_apply be, rowB_apply (Host.rsqrt _), dot_apply]
  simp only [hid_apply h agg W1 b1 n]
  rfl

end Cert.ReferenceIdeal.RCore

end
-- ==== Proof.RLayerB.lean ====
import proofs.«416347_j65000035058412_3_alg».proof.Proof.RRun
import proofs.«416347_j65000035058412_3_alg».proof.Proof.RCore

noncomputable section

namespace Cert.ReferenceIdeal.RLayerB

open Cert.ReferenceIdeal Cert.ReferenceIdeal.Gen Cert.ReferenceIdeal.RRun Cert.ReferenceIdeal.RCore
open Idealize.ShloMosaic Idealize.ShloMosaic.StableHlo

variable (m : (ℓ : Loc nD τ sig) → Buf (Elt Ideal) ℓ)

theorem upd0 (c : Dev nD) :
    Q4 m c (Proc.devRef .tc main_v94)
      = core (Q3 m c (Proc.devRef .tc main_v17)) (Q3 m c (Proc.devRef .tc main_v51))
          (fun i => shapeCast S128x128 (extractStridedSlice S1x128x128 ![0, 0, 0] (Q3 m c (Proc.devRef .tc main_arg6)) slices_S4x128x128_S1x128x128_0_0_0) shapeCasts_S1x128x128_S128x128 i)
          (fun i => shapeCast S128 (extractStridedSlice S1x128 ![0, 0] (Q3 m c (Proc.devRef .tc main_arg7)) slices_S4x128_S1x128_0_0) shapeCasts_S1x128_S128 i)
          (fun i => shapeCast S128x128 (extractStridedSlice S1x128x128 ![0, 0, 0] (Q3 m c (Proc.devRef .tc main_arg8)) slices_S4x128x128_S1x128x128_0_0_0) shapeCasts_S1x128x128_S128x128 i)
          (fun i => shapeCast S128 (extractStridedSlice S1x128 ![0, 0] (Q3 m c (Proc.devRef .tc main_arg9)) slices_S4x128_S1x128_0_0) shapeCasts_S1x128_S128 i)
          (fun i => shapeCast S128 (extractStridedSlice S1x128 ![0, 0] (Q3 m c (Proc.devRef .tc main_arg10)) slices_S4x128_S1x128_0_0) shapeCasts_S1x128_S128 i)
          (fun i => shapeCast S128 (extractStridedSlice S1x128 ![0, 0] (Q3 m c (Proc.devRef .tc main_arg11)) slices_S4x128_S1x128_0_0) shapeCasts_S1x128_S128 i)
          (fun i => shapeCast S128 (extractStridedSlice S1x128 ![0, 0] (Q3 m c (Proc.devRef .tc main_arg12)) slices_S4x128_S1x128_0_0) shapeCasts_S1x128_S128 i)
          (fun i => shapeCast S128 (extractStridedSlice S1x128 ![0, 0] (Q3 m c (Proc.devRef .tc main_arg13)) slices_S4x128_S1x128_0_0) shapeCasts_S1x128_S128 i) := by
  show StableHlo.after c3 (Q3 m c) (Proc.devRef .tc main_v94) = _
  generalize Q3 m c = V
  after_results_simp
  rfl

theorem upd1 (c : Dev nD) :
    Q7 m c (Proc.devRef .tc main_v149)
      = core (Q6 m c (Proc.devRef .tc main_v94)) (Q6 m c (Proc.devRef .tc main_v106))
          (fun i => shapeCast S128x128 (extractStridedSlice S1x128x128 ![1, 0, 0] (Q6 m c (Proc.devRef .tc main_arg6)) slices_S4x128x128_S1x128x128_1_0_0) shapeCasts_S1x128x128_S128x128 i)
          (fun i => shapeCast S128 (extractStridedSlice S1x128 ![1, 0] (Q6 m c (Proc.devRef .tc main_arg7)) slices_S4x128_S1x128_1_0) shapeCasts_S1x128_S128 i)
          (fun i => shapeCast S128x128 (extractStridedSlice S1x128x128 ![1, 0, 0] (Q6 m c (Proc.devRef .tc main_arg8)) slices_S4x128x128_S1x128x128_1_0_0) shapeCasts_S1x128x128_S128x128 i)
          (fun i => shapeCast S128 (extractStridedSlice S1x128 ![1, 0] (Q6 m c (Proc.devRef .tc main_arg9)) slices_S4x128_S1x128_1_0) shapeCasts_S1x128_S128 i)
          (fun i => shapeCast S128 (extractStridedSlice S1x128 ![1, 0] (Q6 m c (Proc.devRef .tc main_arg10)) slices_S4x128_S1x128_1_0) shapeCasts_S1x128_S128 i)
          (fun i => shapeCast S128 (extractStridedSlice S1x128 ![1, 0] (Q6 m c (Proc.devRef .tc main_arg11)) slices_S4x128_S1x128_1_0) shapeCasts_S1x128_S128 i)
          (fun i => shapeCast S128 (extractStridedSlice S1x128 ![1, 0] (Q6 m c (Proc.devRef .tc main_arg12)) slices_S4x128_S1x128_1_0) shapeCasts_S1x128_S128 i)
          (fun i => shapeCast S128 (extractStridedSlice S1x128 ![1, 0] (Q6 m c (Proc.devRef .tc main_arg13)) slices_S4x128_S1x128_1_0) shapeCasts_S1x128_S128 i) := by
  show StableHlo.after c6 (Q6 m c) (Proc.devRef .tc main_v149) = _
  generalize Q6 m c = V
  after_results_simp
  rfl

theorem upd2 (c : Dev nD) :
    Q10 m c (Proc.devRef .tc main_v204)
      = core (Q9 m c (Proc.devRef .tc main_v149)) (Q9 m c (Proc.devRef .tc main_v161))
          (fun i => shapeCast S128x128 (extractStridedSlice S1x128x128 ![2, 0, 0] (Q9 m c (Proc.devRef .tc main_arg6)) slices_S4x128x128_S1x128x128_2_0_0) shapeCasts_S1x128x128_S128x128 i)
          (fun i => shapeCast S128 (extractStridedSlice S1x128 ![2, 0] (Q9 m c (Proc.devRef .tc main_arg7)) slices_S4x128_S1x128_2_0) shapeCasts_S1x128_S128 i)
          (fun i => shapeCast S128x128 (extractStridedSlice S1x128x128 ![2, 0, 0] (Q9 m c (Proc.devRef .tc main_arg8)) slices_S4x128x128_S1x128x128_2_0_0) shapeCasts_S1x128x128_S128x128 i)
          (fun i => shapeCast S128 (extractStridedSlice S1x128 ![2, 0] (Q9 m c (Proc.devRef .tc main_arg9)) slices_S4x128_S1x128_2_0) shapeCasts_S1x128_S128 i)
          (fun i => shapeCast S128 (extractStridedSlice S1x128 ![2, 0] (Q9 m c (Proc.devRef .tc main_arg10)) slices_S4x128_S1x128_2_0) shapeCasts_S1x128_S128 i)
          (fun i => shapeCast S128 (extractStridedSlice S1x128 ![2, 0] (Q9 m c (Proc.devRef .tc main_arg11)) slices_S4x128_S1x128_2_0) shapeCasts_S1x128_S128 i)
          (fun i => shapeCast S128 (extractStridedSlice S1x128 ![2, 0] (Q9 m c (Proc.devRef .tc main_arg12)) slices_S4x128_S1x128_2_0) shapeCasts_S1x128_S128 i)
          (fun i => shapeCast S128 (extractStridedSlice S1x128 ![2, 0] (Q9 m c (Proc.devRef .tc main_arg13)) slices_S4x128_S1x128_2_0) shapeCasts_S1x128_S128 i) := by
  show StableHlo.after c9 (Q9 m c) (Proc.devRef .tc main_v204) = _
  generalize Q9 m c = V
  after_results_simp
  rfl

theorem upd3 (c : Dev nD) :
    Q13 m c (Proc.devRef .tc main_v259)
      = core (Q12 m c (Proc.devRef .tc main_v204)) (Q12 m c (Proc.devRef .tc main_v216))
          (fun i => shapeCast S128x128 (extractStridedSlice S1x128x128 ![3, 0, 0] (Q12 m c (Proc.devRef .tc main_arg6)) slices_S4x128x128_S1x128x128_3_0_0) shapeCasts_S1x128x128_S128x128 i)
          (fun i => shapeCast S128 (extractStridedSlice S1x128 ![3, 0] (Q12 m c (Proc.devRef .tc main_arg7)) slices_S4x128_S1x128_3_0) shapeCasts_S1x128_S128 i)
          (fun i => shapeCast S128x128 (extractStridedSlice S1x128x128 ![3, 0, 0] (Q12 m c (Proc.devRef .tc main_arg8)) slices_S4x128x128_S1x128x128_3_0_0) shapeCasts_S1x128x128_S128x128 i)
          (fun i => shapeCast S128 (extractStridedSlice S1x128 ![3, 0] (Q12 m c (Proc.devRef .tc main_arg9)) slices_S4x128_S1x128_3_0) shapeCasts_S1x128_S128 i)
          (fun i => shapeCast S128 (extractStridedSlice S1x128 ![3, 0] (Q12 m c (Proc.devRef .tc main_arg10)) slices_S4x128_S1x128_3_0) shapeCasts_S1x128_S128 i)
          (fun i => shapeCast S128 (extractStridedSlice S1x128 ![3, 0] (Q12 m c (Proc.devRef .tc main_arg11)) slices_S4x128_S1x128_3_0) shapeCasts_S1x128_S128 i)
          (fun i => shapeCast S128 (extractStridedSlice S1x128 ![3, 0] (Q12 m c (Proc.devRef .tc main_arg12)) slices_S4x128_S1x128_3_0) shapeCasts_S1x128_S128 i)
          (fun i => shapeCast S128 (extractStridedSlice S1x128 ![3, 0] (Q12 m c (Proc.devRef .tc main_arg13)) slices_S4x128_S1x128_3_0) shapeCasts_S1x128_S128 i) := by
  show StableHlo.after c12 (Q12 m c) (Proc.devRef .tc main_v259) = _
  generalize Q12 m c = V
  after_results_simp
  rfl

end Cert.ReferenceIdeal.RLayerB

end
-- ==== Proof.RTail.lean ====
import proofs.«416347_j65000035058412_3_alg».proof.Proof.RRun
import proofs.«416347_j65000035058412_3_alg».proof.Proof.RKeep
import proofs.«416347_j65000035058412_3_alg».proof.Proof.Spec
import Idealize.ShloMosaic.PureOps.Ideal
import Idealize.ShloMosaic.Lib.StableHlo.Run

noncomputable section

namespace Cert.ReferenceIdeal.RTail

open Cert.ReferenceIdeal Cert.ReferenceIdeal.Gen Cert.ReferenceIdeal.RRun
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ)

def tail (h : FVec Ideal S50000x128 .f32) (batch : IVec S50000 32) (mw : FVec Ideal S128x10 .f32) (mb : FVec Ideal S10 .f32) : FVec Ideal S1000x10 .f32 := addf (Host.dotGeneral dot_S1000x128_S128x10_S1000x10_1_0_0_1_n_n none (Host.divf (Host.scatterAdd scatter_S1000x128_S50000x1_S50000x128_1_0_0_1 (broadcastInDim S1000x128 ![] bcast_S_S1000x128 (constant (F := Ideal) S_ .f32 0x00000000#32)) (broadcastInDim S50000x1 ![0] bcast_S50000_S50000x1_0 batch) h) (broadcastInDim S1000x128 ![0, 1] bcast_S1000x1_S1000x128_0_1 (broadcastInDim S1000x1 ![0] bcast_S1000_S1000x1_0 (maximumf (Host.scatterAdd scatter_S1000_S50000x1_S50000_n_0_0_1 (broadcastInDim S1000 ![] bcast_S_S1000 (constant (F := Ideal) S_ .f32 0x00000000#32)) (broadcastInDim S50000x1 ![0] bcast_S50000_S50000x1_0 batch) (broadcastInDim S50000 ![] bcast_S_S50000 (constant (F := Ideal) S_ .f32 0x3F800000#32))) (broadcastInDim S1000 ![] bcast_S_S1000 (constant (F := Ideal) S_ .f32 0x3F800000#32)))))) mw) (broadcastInDim S1000x10 ![0, 1] bcast_S1x10_S1000x10_0_1 (broadcastInDim S1x10 ![1] bcast_S10_S1x10_1 mb))

def segSum (h : FVec Ideal S50000x128 .f32) (batch : IVec S50000 32) : FVec Ideal S1000x128 .f32 := Host.scatterAdd scatter_S1000x128_S50000x1_S50000x128_1_0_0_1 (broadcastInDim S1000x128 ![] bcast_S_S1000x128 (constant (F := Ideal) S_ .f32 0x00000000#32)) (broadcastInDim S50000x1 ![0] bcast_S50000_S50000x1_0 batch) h

def segCnt (batch : IVec S50000 32) : FVec Ideal S1000x1 .f32 := broadcastInDim S1000x1 ![0] bcast_S1000_S1000x1_0 (maximumf (Host.scatterAdd scatter_S1000_S50000x1_S50000_n_0_0_1 (broadcastInDim S1000 ![] bcast_S_S1000 (constant (F := Ideal) S_ .f32 0x00000000#32)) (broadcastInDim S50000x1 ![0] bcast_S50000_S50000x1_0 batch) (broadcastInDim S50000 ![] bcast_S_S50000 (constant (F := Ideal) S_ .f32 0x3F800000#32))) (broadcastInDim S1000 ![] bcast_S_S1000 (constant (F := Ideal) S_ .f32 0x3F800000#32)))

def affine (s : FVec Ideal S1000x128 .f32) (cnt : FVec Ideal S1000x1 .f32) (mw : FVec Ideal S128x10 .f32) (mb : FVec Ideal S10 .f32) : FVec Ideal S1000x10 .f32 := addf (Host.dotGeneral dot_S1000x128_S128x10_S1000x10_1_0_0_1_n_n none (Host.divf s (broadcastInDim S1000x128 ![0, 1] bcast_S1000x1_S1000x128_0_1 cnt)) mw) (broadcastInDim S1000x10 ![0, 1] bcast_S1x10_S1000x10_0_1 (broadcastInDim S1x10 ![1] bcast_S10_S1x10_1 mb))

theorem tail_eq (h : FVec Ideal S50000x128 .f32) (batch : IVec S50000 32) (mw : FVec Ideal S128x10 .f32) (mb : FVec Ideal S10 .f32) : tail h batch mw mb = affine (segSum h batch) (segCnt batch) mw mb := rfl

theorem c14_v275 (V : Valuation τ sig (Elt Ideal)) : StableHlo.after c14 V (Proc.devRef .tc main_v275) = affine (V (Proc.devRef .tc main_v262)) (V (Proc.devRef .tc main_v269)) (V (Proc.devRef .tc main_arg14)) (V (Proc.devRef .tc main_arg15)) := by
  after_results_simp
  rfl

theorem c13_v262 (V : Valuation τ sig (Elt Ideal)) : StableHlo.after c13 V (Proc.devRef .tc main_v262) = segSum (V (Proc.devRef .tc main_v259)) (V (Proc.devRef .tc main_arg3)) := by
  after_results_simp
  rfl

theorem c13_v269 (V : Valuation τ sig (Elt Ideal)) : StableHlo.after c13 V (Proc.devRef .tc main_v269) = segCnt (V (Proc.devRef .tc main_arg3)) := by
  after_results_simp
  rfl

theorem out (c : Dev nD) : Q15 m c (Proc.devRef .tc main_v275) = tail (Q13 m c (Proc.devRef .tc main_v259)) (Q13 m c (Proc.devRef .tc main_arg3)) (Q13 m c (Proc.devRef .tc main_arg14)) (Q13 m c (Proc.devRef .tc main_arg15)) := by
  have h14 : Q15 m c (Proc.devRef .tc main_v275) = _ := c14_v275 (Q14 m c)
  have h262 : Q14 m c (Proc.devRef .tc main_v262) = _ := c13_v262 (Q13 m c)
  have h269 : Q14 m c (Proc.devRef .tc main_v269) = _ := c13_v269 (Q13 m c)
  rw [h14, h262, h269, RKeep.q13_14 m c main_arg14, RKeep.q13_14 m c main_arg15, tail_eq]

end Cert.ReferenceIdeal.RTail

end
-- ==== Proof.RChain.lean ====
import proofs.«416347_j65000035058412_3_alg».proof.Proof.RRun
import proofs.«416347_j65000035058412_3_alg».proof.Proof.Spec
import proofs.«416347_j65000035058412_3_alg».proof.Proof.RKeep
import proofs.«416347_j65000035058412_3_alg».proof.Proof.REnc0
import proofs.«416347_j65000035058412_3_alg».proof.Proof.REnc1
import proofs.«416347_j65000035058412_3_alg».proof.Proof.RLayerA
import proofs.«416347_j65000035058412_3_alg».proof.Proof.RLayerB
import proofs.«416347_j65000035058412_3_alg».proof.Proof.RCore
import proofs.«416347_j65000035058412_3_alg».proof.Proof.RTail

noncomputable section

namespace Cert.ReferenceIdeal.RChain

open Cert.ReferenceIdeal Cert.ReferenceIdeal.Gen Cert.ReferenceIdeal.RRun Cert.ReferenceIdeal.RKeep
open Idealize.ShloMosaic Idealize.ShloMosaic.TcCoe Idealize.ShloMosaic.StableHlo Idealize.ShloMosaic.ValueIdx
open Idealize.SL.Sem

variable (m : (ℓ : Loc nD τ sig) → Buf (Elt Ideal) ℓ)

abbrev src (c : Dev nD) : IVec S500000 32 := Q1 m c (Proc.devRef .tc main_v37)
abbrev dst (c : Dev nD) : IVec S500000 32 := Q1 m c (Proc.devRef .tc main_v39)

def h0 (c : Dev nD) : FVec Ideal S50000x128 .f32 := Cert.Spec.encSpec (by decide) (Q0 m c (Proc.devRef .tc main_arg0)) (Q0 m c (Proc.devRef .tc main_arg4))
def e (c : Dev nD) : FVec Ideal S500000x128 .f32 := Cert.Spec.encSpec (by decide) (Q0 m c (Proc.devRef .tc main_arg2)) (Q0 m c (Proc.devRef .tc main_arg5))

def agg (h : FVec Ideal S50000x128 .f32) (c : Dev nD) : FVec Ideal S50000x128 .f32 :=
  Host.scatterAdd scatter_S50000x128_S500000x1_S500000x128_1_0_0_1 RLayerA.zeros
    (broadcastInDim S500000x1 ![0] bcast_S500000_S500000x1_0 (dst m c))
    (Cert.Spec.msgSpec (Host.gather gather_S50000x128_S500000x1_S500000x128_1_0_n_n_0_1_1128 h (RLayerA.idx (src m c))) (e m c))

def mat0 (a : FVec Ideal S4x128x128 .f32) : FVec Ideal S128x128 .f32 :=
  shapeCast S128x128 (extractStridedSlice S1x128x128 ![0, 0, 0] a slices_S4x128x128_S1x128x128_0_0_0) shapeCasts_S1x128x128_S128x128
def vec0 (a : FVec Ideal S4x128 .f32) : FVec Ideal S128 .f32 :=
  shapeCast S128 (extractStridedSlice S1x128 ![0, 0] a slices_S4x128_S1x128_0_0) shapeCasts_S1x128_S128

def upd0 (h : FVec Ideal S50000x128 .f32) (c : Dev nD) : FVec Ideal S50000x128 .f32 :=
  Cert.Spec.updSpec h (agg m h c) (mat0 (Q0 m c (Proc.devRef .tc main_arg6))) (Cert.Spec.row (vec0 (Q0 m c (Proc.devRef .tc main_arg7)))) (mat0 (Q0 m c (Proc.devRef .tc main_arg8))) (Cert.Spec.row (vec0 (Q0 m c (Proc.devRef .tc main_arg9))))
    (Cert.Spec.row (vec0 (Q0 m c (Proc.devRef .tc main_arg10)))) (Cert.Spec.row (vec0 (Q0 m c (Proc.devRef .tc main_arg11)))) (Cert.Spec.row (vec0 (Q0 m c (Proc.devRef .tc main_arg12)))) (Cert.Spec.row (vec0 (Q0 m c (Proc.devRef .tc main_arg13))))

def mat1 (a : FVec Ideal S4x128x128 .f32) : FVec Ideal S128x128 .f32 :=
  shapeCast S128x128 (extractStridedSlice S1x128x128 ![1, 0, 0] a slices_S4x128x128_S1x128x128_1_0_0) shapeCasts_S1x128x128_S128x128
def vec1 (a : FVec Ideal S4x128 .f32) : FVec Ideal S128 .f32 :=
  shapeCast S128 (extractStridedSlice S1x128 ![1, 0] a slices_S4x128_S1x128_1_0) shapeCasts_S1x128_S128

def upd1 (h : FVec Ideal S50000x128 .f32) (c : Dev nD) : FVec Ideal S50000x128 .f32 :=
  Cert.Spec.updSpec h (agg m h c) (mat1 (Q0 m c (Proc.devRef .tc main_arg6))) (Cert.Spec.row (vec1 (Q0 m c (Proc.devRef .tc main_arg7)))) (mat1 (Q0 m c (Proc.devRef .tc main_arg8))) (Cert.Spec.row (vec1 (Q0 m c (Proc.devRef .tc main_arg9))))
    (Cert.Spec.row (vec1 (Q0 m c (Proc.devRef .tc main_arg10)))) (Cert.Spec.row (vec1 (Q0 m c (Proc.devRef .tc main_arg11)))) (Cert.Spec.row (vec1 (Q0 m c (Proc.devRef .tc main_arg12)))) (Cert.Spec.row (vec1 (Q0 m c (Proc.devRef .tc main_arg13))))

def mat2 (a : FVec Ideal S4x128x128 .f32) : FVec Ideal S128x128 .f32 :=
  shapeCast S128x128 (extractStridedSlice S1x128x128 ![2, 0, 0] a slices_S4x128x128_S1x128x128_2_0_0) shapeCasts_S1x128x128_S128x128
def vec2 (a : FVec Ideal S4x128 .f32) : FVec Ideal S128 .f32 :=
  shapeCast S128 (extractStridedSlice S1x128 ![2, 0] a slices_S4x128_S1x128_2_0) shapeCasts_S1x128_S128

def upd2 (h : FVec Ideal S50000x128 .f32) (c : Dev nD) : FVec Ideal S50000x128 .f32 :=
  Cert.Spec.updSpec h (agg m h c) (mat2 (Q0 m c (Proc.devRef .tc main_arg6))) (Cert.Spec.row (vec2 (Q0 m c (Proc.devRef .tc main_arg7)))) (mat2 (Q0 m c (Proc.devRef .tc main_arg8))) (Cert.Spec.row (vec2 (Q0 m c (Proc.devRef .tc main_arg9))))
    (Cert.Spec.row (vec2 (Q0 m c (Proc.devRef .tc main_arg10)))) (Cert.Spec.row (vec2 (Q0 m c (Proc.devRef .tc main_arg11)))) (Cert.Spec.row (vec2 (Q0 m c (Proc.devRef .tc main_arg12)))) (Cert.Spec.row (vec2 (Q0 m c (Proc.devRef .tc main_arg13))))

def mat3 (a : FVec Ideal S4x128x128 .f32) : FVec Ideal S128x128 .f32 :=
  shapeCast S128x128 (extractStridedSlice S1x128x128 ![3, 0, 0] a slices_S4x128x128_S1x128x128_3_0_0) shapeCasts_S1x128x128_S128x128
def vec3 (a : FVec Ideal S4x128 .f32) : FVec Ideal S128 .f32 :=
  shapeCast S128 (extractStridedSlice S1x128 ![3, 0] a slices_S4x128_S1x128_3_0) shapeCasts_S1x128_S128

def upd3 (h : FVec Ideal S50000x128 .f32) (c : Dev nD) : FVec Ideal S50000x128 .f32 :=
  Cert.Spec.updSpec h (agg m h c) (mat3 (Q0 m c (Proc.devRef .tc main_arg6))) (Cert.Spec.row (vec3 (Q0 m c (Proc.devRef .tc main_arg7)))) (mat3 (Q0 m c (Proc.devRef .tc main_arg8))) (Cert.Spec.row (vec3 (Q0 m c (Proc.devRef .tc main_arg9))))
    (Cert.Spec.row (vec3 (Q0 m c (Proc.devRef .tc main_arg10)))) (Cert.Spec.row (vec3 (Q0 m c (Proc.devRef .tc main_arg11)))) (Cert.Spec.row (vec3 (Q0 m c (Proc.devRef .tc main_arg12)))) (Cert.Spec.row (vec3 (Q0 m c (Proc.devRef .tc main_arg13))))

def result (c : Dev nD) : FVec Ideal S1000x10 .f32 :=
  RTail.tail (upd3 m (upd2 m (upd1 m (upd0 m (h0 m c) c) c) c) c) (Q0 m c (Proc.devRef .tc main_arg3)) (Q0 m c (Proc.devRef .tc main_arg14)) (Q0 m c (Proc.devRef .tc main_arg15))

theorem enc_nodes (c : Dev nD) (hx : ∀ i, 0 ≤ (Q0 m c (Proc.devRef .tc main_arg0) i).toInt ∧ (Q0 m c (Proc.devRef .tc main_arg0) i).toInt < 120) :
    Q1 m c (Proc.devRef .tc main_v17) = h0 m c :=
  (REnc0.read m c).trans (REnc0.enc_eq _ _ hx)

theorem enc_edges (c : Dev nD) (hx : ∀ i, 0 ≤ (Q0 m c (Proc.devRef .tc main_arg2) i).toInt ∧ (Q0 m c (Proc.devRef .tc main_arg2) i).toInt < 6) :
    Q1 m c (Proc.devRef .tc main_v35) = e m c :=
  (REnc1.read m c).trans (REnc1.enc_eq _ _ hx)

theorem layer0 (c : Dev nD) (H : FVec Ideal S50000x128 .f32)
    (he : Q1 m c (Proc.devRef .tc main_v35) = e m c)
    (hh : Q1 m c (Proc.devRef .tc main_v17) = H) :
    Q4 m c (Proc.devRef .tc main_v94) = upd0 m H c := by
  have ag : Q3 m c (Proc.devRef .tc main_v51) = agg m H c := by
    rw [RLayerA.agg0 m c, hh, he]; rfl
  rw [RLayerB.upd0 m c, (Cert.ReferenceIdeal.RKeep.q1_3 m c Cert.ReferenceIdeal.main_v17), hh, ag, q0_3 m c main_arg6, q0_3 m c main_arg7, q0_3 m c main_arg8, q0_3 m c main_arg9, q0_3 m c main_arg10, q0_3 m c main_arg11, q0_3 m c main_arg12, q0_3 m c main_arg13]
  exact Cert.ReferenceIdeal.RCore.core_eq _ _ _ _ _ _ _ _ _ _

theorem layer1 (c : Dev nD) (H : FVec Ideal S50000x128 .f32)
    (he : Q1 m c (Proc.devRef .tc main_v35) = e m c)
    (hh : Q4 m c (Proc.devRef .tc main_v94) = H) :
    Q7 m c (Proc.devRef .tc main_v149) = upd1 m H c := by
  have ag : Q6 m c (Proc.devRef .tc main_v106) = agg m H c := by
    rw [RLayerA.agg1 m c, q1_4 m c main_v39, q1_4 m c main_v37, q1_4 m c main_v35, hh, he]; rfl
  rw [RLayerB.upd1 m c, (Cert.ReferenceIdeal.RKeep.q4_6 m c Cert.ReferenceIdeal.main_v94), hh, ag, q0_6 m c main_arg6, q0_6 m c main_arg7, q0_6 m c main_arg8, q0_6 m c main_arg9, q0_6 m c main_arg10, q0_6 m c main_arg11, q0_6 m c main_arg12, q0_6 m c main_arg13]
  exact Cert.ReferenceIdeal.RCore.core_eq _ _ _ _ _ _ _ _ _ _

theorem layer2 (c : Dev nD) (H : FVec Ideal S50000x128 .f32)
    (he : Q1 m c (Proc.devRef .tc main_v35) = e m c)
    (hh : Q7 m c (Proc.devRef .tc main_v149) = H) :
    Q10 m c (Proc.devRef .tc main_v204) = upd2 m H c := by
  have ag : Q9 m c (Proc.devRef .tc main_v161) = agg m H c := by
    rw [RLayerA.agg2 m c, q1_7 m c main_v39, q1_7 m c main_v37, q1_7 m c main_v35, hh, he]; rfl
  rw [RLayerB.upd2 m c, (Cert.ReferenceIdeal.RKeep.q7_9 m c Cert.ReferenceIdeal.main_v149), hh, ag, q0_9 m c main_arg6, q0_9 m c main_arg7, q0_9 m c main_arg8, q0_9 m c main_arg9, q0_9 m c main_arg10, q0_9 m c main_arg11, q0_9 m c main_arg12, q0_9 m c main_arg13]
  exact Cert.ReferenceIdeal.RCore.core_eq _ _ _ _ _ _ _ _ _ _

theorem layer3 (c : Dev nD) (H : FVec Ideal S50000x128 .f32)
    (he : Q1 m c (Proc.devRef .tc main_v35) = e m c)
    (hh : Q10 m c (Proc.devRef .tc main_v204) = H) :
    Q13 m c (Proc.devRef .tc main_v259) = upd3 m H c := by
  have ag : Q12 m c (Proc.devRef .tc main_v216) = agg m H c := by
    rw [RLayerA.agg3 m c, q1_10 m c main_v39, q1_10 m c main_v37, q1_10 m c main_v35, hh, he]; rfl
  rw [RLayerB.upd3 m c, (Cert.ReferenceIdeal.RKeep.q10_12 m c Cert.ReferenceIdeal.main_v204), hh, ag, q0_12 m c main_arg6, q0_12 m c main_arg7, q0_12 m c main_arg8, q0_12 m c main_arg9, q0_12 m c main_arg10, q0_12 m c main_arg11, q0_12 m c main_arg12, q0_12 m c main_arg13]
  exact Cert.ReferenceIdeal.RCore.core_eq _ _ _ _ _ _ _ _ _ _

theorem result_eq (c : Dev nD)
    (hx : ∀ i, 0 ≤ (Q0 m c (Proc.devRef .tc main_arg0) i).toInt ∧ (Q0 m c (Proc.devRef .tc main_arg0) i).toInt < 120)
    (hea : ∀ i, 0 ≤ (Q0 m c (Proc.devRef .tc main_arg2) i).toInt ∧ (Q0 m c (Proc.devRef .tc main_arg2) i).toInt < 6) :
    Q15 m c (Proc.devRef .tc main_v275) = result m c := by
  have he := enc_edges m c hea
  have l0 := layer0 m c _ he (enc_nodes m c hx)
  have l1 := layer1 m c _ he l0
  have l2 := layer2 m c _ he l1
  have l3 := layer3 m c _ he l2
  rw [RTail.out m c, l3, q0_13 m c main_arg3, q0_13 m c main_arg14, q0_13 m c main_arg15]; rfl

end Cert.ReferenceIdeal.RChain

end
-- ==== Proof.Bridge.lean ====
import proofs.«416347_j65000035058412_3_alg».proof.Proof.KChain
import proofs.«416347_j65000035058412_3_alg».proof.Proof.RChain
import Idealize.ShloMosaic.Lib.ValueLayout

noncomputable section

namespace Cert.Bridge

open Idealize.ShloMosaic Idealize.ShloMosaic.TcCoe Idealize.ShloMosaic.ValueIdx
open Idealize.SL Idealize.SL.Sem

theorem row_eq (v : FVec Ideal ⟨1, ![128]⟩ .f32) (h : (⟨1, ![128]⟩ : Shape).ShapeCasts ⟨2, ![1, 128]⟩) :
    shapeCast ⟨2, ![1, 128]⟩ v h = Cert.Spec.row v := by
  funext j
  obtain ⟨u, i, rfl⟩ : ∃ (u : Fin 1) (i : Fin 128), j = ix2 u i := ⟨j 0, j 1, eq_ix2 j⟩
  rw [shapeCast_a_1a_apply]
  rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem results_agree (c : Dev Cert.KernelIdeal.nD)
    (b0 : Cert.KernelIdeal.Gen.W0 m ρ c (Proc.devRef .tc Cert.KernelIdeal.main_arg0) = Cert.ReferenceIdeal.RRun.Q0 m' c (Proc.devRef .tc Cert.ReferenceIdeal.main_arg0))
    (b1 : Cert.KernelIdeal.Gen.W0 m ρ c (Proc.devRef .tc Cert.KernelIdeal.main_arg1) = Cert.ReferenceIdeal.RRun.Q0 m' c (Proc.devRef .tc Cert.ReferenceIdeal.main_arg1))
    (b2 : Cert.KernelIdeal.Gen.W0 m ρ c (Proc.devRef .tc Cert.KernelIdeal.main_arg2) = Cert.ReferenceIdeal.RRun.Q0 m' c (Proc.devRef .tc Cert.ReferenceIdeal.main_arg2))
    (b3 : Cert.KernelIdeal.Gen.W0 m ρ c (Proc.devRef .tc Cert.KernelIdeal.main_arg3) = Cert.ReferenceIdeal.RRun.Q0 m' c (Proc.devRef .tc Cert.ReferenceIdeal.main_arg3))
    (b4 : Cert.KernelIdeal.Gen.W0 m ρ c (Proc.devRef .tc Cert.KernelIdeal.main_arg4) = Cert.ReferenceIdeal.RRun.Q0 m' c (Proc.devRef .tc Cert.ReferenceIdeal.main_arg4))
    (b5 : Cert.KernelIdeal.Gen.W0 m ρ c (Proc.devRef .tc Cert.KernelIdeal.main_arg5) = Cert.ReferenceIdeal.RRun.Q0 m' c (Proc.devRef .tc Cert.ReferenceIdeal.main_arg5))
    (b6 : Cert.KernelIdeal.Gen.W0 m ρ c (Proc.devRef .tc Cert.KernelIdeal.main_arg6) = Cert.ReferenceIdeal.RRun.Q0 m' c (Proc.devRef .tc Cert.ReferenceIdeal.main_arg6))
    (b7 : Cert.KernelIdeal.Gen.W0 m ρ c (Proc.devRef .tc Cert.KernelIdeal.main_arg7) = Cert.ReferenceIdeal.RRun.Q0 m' c (Proc.devRef .tc Cert.ReferenceIdeal.main_arg7))
    (b8 : Cert.KernelIdeal.Gen.W0 m ρ c (Proc.devRef .tc Cert.KernelIdeal.main_arg8) = Cert.ReferenceIdeal.RRun.Q0 m' c (Proc.devRef .tc Cert.ReferenceIdeal.main_arg8))
    (b9 : Cert.KernelIdeal.Gen.W0 m ρ c (Proc.devRef .tc Cert.KernelIdeal.main_arg9) = Cert.ReferenceIdeal.RRun.Q0 m' c (Proc.devRef .tc Cert.ReferenceIdeal.main_arg9))
    (b10 : Cert.KernelIdeal.Gen.W0 m ρ c (Proc.devRef .tc Cert.KernelIdeal.main_arg10) = Cert.ReferenceIdeal.RRun.Q0 m' c (Proc.devRef .tc Cert.ReferenceIdeal.main_arg10))
    (b11 : Cert.KernelIdeal.Gen.W0 m ρ c (Proc.devRef .tc Cert.KernelIdeal.main_arg11) = Cert.ReferenceIdeal.RRun.Q0 m' c (Proc.devRef .tc Cert.ReferenceIdeal.main_arg11))
    (b12 : Cert.KernelIdeal.Gen.W0 m ρ c (Proc.devRef .tc Cert.KernelIdeal.main_arg12) = Cert.ReferenceIdeal.RRun.Q0 m' c (Proc.devRef .tc Cert.ReferenceIdeal.main_arg12))
    (b13 : Cert.KernelIdeal.Gen.W0 m ρ c (Proc.devRef .tc Cert.KernelIdeal.main_arg13) = Cert.ReferenceIdeal.RRun.Q0 m' c (Proc.devRef .tc Cert.ReferenceIdeal.main_arg13))
    (b14 : Cert.KernelIdeal.Gen.W0 m ρ c (Proc.devRef .tc Cert.KernelIdeal.main_arg14) = Cert.ReferenceIdeal.RRun.Q0 m' c (Proc.devRef .tc Cert.ReferenceIdeal.main_arg14))
    (b15 : Cert.KernelIdeal.Gen.W0 m ρ c (Proc.devRef .tc Cert.KernelIdeal.main_arg15) = Cert.ReferenceIdeal.RRun.Q0 m' c (Proc.devRef .tc Cert.ReferenceIdeal.main_arg15)) :
    Cert.KernelIdeal.KChain.result m ρ c = Cert.ReferenceIdeal.RChain.result m' c := by
  have hsrc : Cert.KernelIdeal.KChain.src m ρ c = Cert.ReferenceIdeal.RChain.src m' c := by
    show Cert.KernelIdeal.Gen.W3 m ρ c (Proc.devRef .tc Cert.KernelIdeal.main_v3) = Cert.ReferenceIdeal.RRun.Q1 m' c (Proc.devRef .tc Cert.ReferenceIdeal.main_v37)
    rw [Cert.KernelIdeal.KHostA.src m ρ c, Cert.KernelIdeal.Keep.w0_2 m ρ c Cert.KernelIdeal.main_arg1, b1, Cert.ReferenceIdeal.REnc1.src m' c]
  have hdst : Cert.KernelIdeal.KChain.dst m ρ c = Cert.ReferenceIdeal.RChain.dst m' c := by
    show Cert.KernelIdeal.Gen.W3 m ρ c (Proc.devRef .tc Cert.KernelIdeal.main_v5) = Cert.ReferenceIdeal.RRun.Q1 m' c (Proc.devRef .tc Cert.ReferenceIdeal.main_v39)
    rw [Cert.KernelIdeal.KHostA.dst m ρ c, Cert.KernelIdeal.Keep.w0_2 m ρ c Cert.KernelIdeal.main_arg1, b1, Cert.ReferenceIdeal.REnc1.dst m' c]

  have hh0 : Cert.KernelIdeal.KChain.h0 m ρ c = Cert.ReferenceIdeal.RChain.h0 m' c := by
    unfold Cert.KernelIdeal.KChain.h0 Cert.ReferenceIdeal.RChain.h0; rw [b0, b4]
  have he : Cert.KernelIdeal.KChain.e m ρ c = Cert.ReferenceIdeal.RChain.e m' c := by
    unfold Cert.KernelIdeal.KChain.e Cert.ReferenceIdeal.RChain.e; rw [b2, b5]

  have hagg : ∀ h, Cert.KernelIdeal.KChain.agg m ρ h c = Cert.ReferenceIdeal.RChain.agg m' h c := fun h => by
    unfold Cert.KernelIdeal.KChain.agg Cert.ReferenceIdeal.RChain.agg; rw [hsrc, hdst, he]; rfl
  have hupd0 : ∀ h, Cert.KernelIdeal.KChain.upd0 m ρ h c = Cert.ReferenceIdeal.RChain.upd0 m' h c := fun h => by
    unfold Cert.KernelIdeal.KChain.upd0 Cert.ReferenceIdeal.RChain.upd0 Cert.KernelIdeal.KHostB.row0
    rw [hagg, b6, b7, b8, b9, b10, b11, b12, b13]
    simp only [row_eq]
    rfl
  have hupd1 : ∀ h, Cert.KernelIdeal.KChain.upd1 m ρ h c = Cert.ReferenceIdeal.RChain.upd1 m' h c := fun h => by
    unfold Cert.KernelIdeal.KChain.upd1 Cert.ReferenceIdeal.RChain.upd1 Cert.KernelIdeal.KHostB.row1
    rw [hagg, b6, b7, b8, b9, b10, b11, b12, b13]
    simp only [row_eq]
    rfl
  have hupd2 : ∀ h, Cert.KernelIdeal.KChain.upd2 m ρ h c = Cert.ReferenceIdeal.RChain.upd2 m' h c := fun h => by
    unfold Cert.KernelIdeal.KChain.upd2 Cert.ReferenceIdeal.RChain.upd2 Cert.KernelIdeal.KHostB.row2
    rw [hagg, b6, b7, b8, b9, b10, b11, b12, b13]
    simp only [row_eq]
    rfl
  have hupd3 : ∀ h, Cert.KernelIdeal.KChain.upd3 m ρ h c = Cert.ReferenceIdeal.RChain.upd3 m' h c := fun h => by
    unfold Cert.KernelIdeal.KChain.upd3 Cert.ReferenceIdeal.RChain.upd3 Cert.KernelIdeal.KHostB.row3
    rw [hagg, b6, b7, b8, b9, b10, b11, b12, b13]
    simp only [row_eq]
    rfl
  unfold Cert.KernelIdeal.KChain.result Cert.ReferenceIdeal.RChain.result
  rw [hh0, hupd0, hupd1, hupd2, hupd3, b3, b14, b15]
  rfl

end Cert.Bridge

end
-- ==== Proof.lean ====
import proofs.«416347_j65000035058412_3_alg».proof.Defs
import proofs.«416347_j65000035058412_3_alg».proof.Proof.Gen.Kernel
import proofs.«416347_j65000035058412_3_alg».proof.Proof.Gen.Kernel.Skeleton
import proofs.«416347_j65000035058412_3_alg».proof.Proof.Gen.Kernel.Launch
import proofs.«416347_j65000035058412_3_alg».proof.Proof.Gen.Kernel.Points
import proofs.«416347_j65000035058412_3_alg».proof.Proof.Gen.Kernel.Frame
import proofs.«416347_j65000035058412_3_alg».proof.Proof.Gen.KernelIdeal
import proofs.«416347_j65000035058412_3_alg».proof.Proof.Gen.KernelIdeal.Skeleton
import proofs.«416347_j65000035058412_3_alg».proof.Proof.Gen.KernelIdeal.Launch
import proofs.«416347_j65000035058412_3_alg».proof.Proof.Gen.KernelIdeal.Points
import proofs.«416347_j65000035058412_3_alg».proof.Proof.Gen.KernelIdeal.Frame
import proofs.«416347_j65000035058412_3_alg».proof.Proof.Gen.ReferenceIdeal
import proofs.«416347_j65000035058412_3_alg».proof.Proof.Gen.Pre_finite_inputs
import proofs.«416347_j65000035058412_3_alg».proof.Proof.KRun
import proofs.«416347_j65000035058412_3_alg».proof.Proof.PreDecode
import proofs.«416347_j65000035058412_3_alg».proof.Proof.Bridge
import Idealize.ShloMosaic.Adequacy
import Idealize.ShloMosaic.Init

noncomputable section

namespace Cert.Proof

open Idealize.ShloMosaic Idealize.ShloMosaic.TcCoe Idealize.SL.Sem

theorem frame_ri : Cert.frame_ReferenceIdeal := fun m g _ =>
  (θ_run (Cert.ReferenceIdeal.defs (F := Ideal)) _ _).mono (fun r h c =>
    by repeat' apply And.intro
       all_goals exact (h c _).trans (Cert.ReferenceIdeal.RKeep.q0_15 m c _))
    (Cert.ReferenceIdeal.RRun.run m g)

theorem src_eq (m : (ℓ : Loc Cert.KernelIdeal.nD Cert.KernelIdeal.τ Cert.KernelIdeal.sig) → Buf (Elt Ideal) ℓ) (g : Dev Cert.KernelIdeal.nD → PrngReg) (c : Dev Cert.KernelIdeal.nD) :
    Cert.KernelIdeal.KChain.src m g c = Cert.PreDecode.srcOf (m ((c.tc : Thread Cert.KernelIdeal.nD Cert.KernelIdeal.τ).loc Cert.KernelIdeal.main_arg1)) := by
  show Cert.KernelIdeal.Gen.W3 m g c (Proc.devRef .tc Cert.KernelIdeal.main_v3) = _
  rw [Cert.KernelIdeal.KHostA.src m g c, Cert.KernelIdeal.Keep.w0_2 m g c Cert.KernelIdeal.main_arg1]; rfl

theorem algebraic : Cert.algebraic_KernelIdeal_ReferenceIdeal := by
  intro m g m' g' hpre hagree
  have hr := fun c => Cert.PreDecode.ranges _ _ _ _ _ _ _ _ _ _ _ _ _ _ _ _ (hpre c)
  refine ⟨fun c => Cert.KernelIdeal.KChain.result m g c, ?_, ?_⟩
  · exact (θ_run (Cert.KernelIdeal.defs (F := Ideal)) _ _).mono (fun r h c =>
      ⟨(h c).1.trans (Cert.KernelIdeal.KChain.result_eq m g c (hr c).1 (hr c).2.1 (by rw [src_eq]; exact (hr c).2.2)), (h c).2⟩)
      (Cert.KernelIdeal.KRun.run_value m g)
  · refine (θ_run (Cert.ReferenceIdeal.defs (F := Ideal)) _ _).mono (fun r h c => ?_) (Cert.ReferenceIdeal.RRun.run m' g')
    have hx' : ∀ i, 0 ≤ (Cert.ReferenceIdeal.RRun.Q0 m' c (Proc.devRef .tc Cert.ReferenceIdeal.main_arg0) i).toInt ∧ (Cert.ReferenceIdeal.RRun.Q0 m' c (Proc.devRef .tc Cert.ReferenceIdeal.main_arg0) i).toInt < 120 := by
      show ∀ i, 0 ≤ (m' ((c.tc : Thread Cert.ReferenceIdeal.nD Cert.ReferenceIdeal.τ).loc Cert.ReferenceIdeal.main_arg0) i).toInt ∧ (m' ((c.tc : Thread Cert.ReferenceIdeal.nD Cert.ReferenceIdeal.τ).loc Cert.ReferenceIdeal.main_arg0) i).toInt < 120
      rw [(hagree c).1]; exact (hr c).1
    have hea' : ∀ i, 0 ≤ (Cert.ReferenceIdeal.RRun.Q0 m' c (Proc.devRef .tc Cert.ReferenceIdeal.main_arg2) i).toInt ∧ (Cert.ReferenceIdeal.RRun.Q0 m' c (Proc.devRef .tc Cert.ReferenceIdeal.main_arg2) i).toInt < 6 := by
      show ∀ i, 0 ≤ (m' ((c.tc : Thread Cert.ReferenceIdeal.nD Cert.ReferenceIdeal.τ).loc Cert.ReferenceIdeal.main_arg2) i).toInt ∧ (m' ((c.tc : Thread Cert.ReferenceIdeal.nD Cert.ReferenceIdeal.τ).loc Cert.ReferenceIdeal.main_arg2) i).toInt < 6
      rw [(hagree c).2.2.1]; exact (hr c).2.1
    exact ⟨(h c Cert.ReferenceIdeal.main_v275).trans ((Cert.ReferenceIdeal.RChain.result_eq m' c hx' hea').trans
        (Cert.Bridge.results_agree m g m' c (hagree c).1.symm (hagree c).2.1.symm (hagree c).2.2.1.symm (hagree c).2.2.2.1.symm (hagree c).2.2.2.2.1.symm (hagree c).2.2.2.2.2.1.symm (hagree c).2.2.2.2.2.2.1.symm (hagree c).2.2.2.2.2.2.2.1.symm (hagree c).2.2.2.2.2.2.2.2.1.symm (hagree c).2.2.2.2.2.2.2.2.2.1.symm (hagree c).2.2.2.2.2.2.2.2.2.2.1.symm (hagree c).2.2.2.2.2.2.2.2.2.2.2.1.symm (hagree c).2.2.2.2.2.2.2.2.2.2.2.2.1.symm (hagree c).2.2.2.2.2.2.2.2.2.2.2.2.2.1.symm (hagree c).2.2.2.2.2.2.2.2.2.2.2.2.2.2.1.symm (hagree c).2.2.2.2.2.2.2.2.2.2.2.2.2.2.2.symm).symm),
      by repeat' apply And.intro
         all_goals exact (h c _).trans (Cert.ReferenceIdeal.RKeep.q0_15 m' c _)⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
